-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S768x32 : Shape := ⟨2, ![768, 32]⟩
abbrev S589824x16 : Shape := ⟨2, ![589824, 16]⟩
abbrev S32x100 : Shape := ⟨2, ![32, 100]⟩
abbrev S100 : Shape := ⟨1, ![100]⟩
abbrev S16x100 : Shape := ⟨2, ![16, 100]⟩
abbrev S100x100 : Shape := ⟨2, ![100, 100]⟩
abbrev S_ : Shape := ⟨0, ![]⟩

class Facts : Prop where
  bcast_S_S768x32 : S_.BroadcastsInDim S768x32 (![] : Fin 0 → Fin S768x32.rank)
  reducesTo_S768x32_S_d0_1 : S768x32.ReducesTo [0, 1] S_
  h_S_ : 0 < S_.numel
  bcast_S_S589824x16 : S_.BroadcastsInDim S589824x16 (![] : Fin 0 → Fin S589824x16.rank)
  reducesTo_S589824x16_S_d0_1 : S589824x16.ReducesTo [0, 1] S_
  bcast_S_S32x100 : S_.BroadcastsInDim S32x100 (![] : Fin 0 → Fin S32x100.rank)
  reducesTo_S32x100_S_d0_1 : S32x100.ReducesTo [0, 1] S_
  bcast_S_S100 : S_.BroadcastsInDim S100 (![] : Fin 0 → Fin S100.rank)
  reducesTo_S100_S_d0 : S100.ReducesTo [0] S_
  bcast_S_S16x100 : S_.BroadcastsInDim S16x100 (![] : Fin 0 → Fin S16x100.rank)
  reducesTo_S16x100_S_d0_1 : S16x100.ReducesTo [0, 1] S_
  bcast_S_S100x100 : S_.BroadcastsInDim S100x100 (![] : Fin 0 → Fin S100x100.rank)
  reducesTo_S100x100_S_d0_1 : S100x100.ReducesTo [0, 1] S_

variable [Facts]

def fn_part4 {F : FTy → Type} [FloatOps F] (main_arg14 : FVec F S100x100 .f32) (main_arg15 : FVec F S100 .f32) (main_v63 : IVec S_ 1) (main_v67 : IVec S_ 1) : IVec S_ 1 :=
  let main_v68 : IVec S_ 1 := andi main_v63 main_v67
  let main_v69 : FVec F S100x100 .f32 := Host.absf main_arg14
  let main_cst_26 : FVec F S_ .f32 := constant S_ .f32 0x7F800000#32
  let main_v70 : FVec F S100x100 .f32 := broadcastInDim S100x100 ![] bcast_S_S100x100 main_cst_26
  let main_v71 : IVec S100x100 1 := cmpf .olt main_v69 main_v70
  let main_c_27 : IVec S_ 1 := constantI S_ 1 1#1
  let main_v72 : IVec S_ 1 := (fun x v => Host.reduce IntOp.andi x v reducesTo_S100x100_S_d0_1 h_S_) main_v71 main_c_27
  let main_v73 : IVec S_ 1 := andi main_v68 main_v72
  let main_v74 : FVec F S100 .f32 := Host.absf main_arg15
  let main_cst_28 : FVec F S_ .f32 := constant S_ .f32 0x7F800000#32
  let main_v75 : FVec F S100 .f32 := broadcastInDim S100 ![] bcast_S_S100 main_cst_28
  let main_v76 : IVec S100 1 := cmpf .olt main_v74 main_v75
  let main_c_29 : IVec S_ 1 := constantI S_ 1 1#1
  let main_v77 : IVec S_ 1 := (fun x v => Host.reduce IntOp.andi x v reducesTo_S100_S_d0 h_S_) main_v76 main_c_29
  let main_v78 : IVec S_ 1 := andi main_v73 main_v77
  main_v78

def fn_part3 {F : FTy → Type} [FloatOps F] (main_arg11 : FVec F S100 .f32) (main_arg12 : FVec F S100x100 .f32) (main_arg13 : FVec F S100 .f32) (main_arg14 : FVec F S100x100 .f32) (main_arg15 : FVec F S100 .f32) (main_v48 : IVec S_ 1) (main_v49 : FVec F S100x100 .f32) (main_v50 : FVec F S100x100 .f32) : IVec S_ 1 :=
  let main_v51 : IVec S100x100 1 := cmpf .olt main_v49 main_v50
  let main_c_19 : IVec S_ 1 := constantI S_ 1 1#1
  let main_v52 : IVec S_ 1 := (fun x v => Host.reduce IntOp.andi x v reducesTo_S100x100_S_d0_1 h_S_) main_v51 main_c_19
  let main_v53 : IVec S_ 1 := andi main_v48 main_v52
  let main_v54 : FVec F S100 .f32 := Host.absf main_arg11
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100x100 .f32 := Host.absf main_arg12
  let main_cst_22 : FVec F S_ .f32 := constant S_ .f32 0x7F800000#32
  let main_v60 : FVec F S100x100 .f32 := broadcastInDim S100x100 ![] bcast_S_S100x100 main_cst_22
  let main_v61 : IVec S100x100 1 := cmpf .olt main_v59 main_v60
  let main_c_23 : IVec S_ 1 := constantI S_ 1 1#1
  let main_v62 : IVec S_ 1 := (fun x v => Host.reduce IntOp.andi x v reducesTo_S100x100_S_d0_1 h_S_) main_v61 main_c_23
  let main_v63 : IVec S_ 1 := andi main_v58 main_v62
  let main_v64 : FVec F S100 .f32 := Host.absf main_arg13
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_arg14 main_arg15 main_v63 main_v67

def fn_part2 {F : FTy → Type} [FloatOps F] (main_arg7 : FVec F S100 .f32) (main_arg8 : FVec F S100x100 .f32) (main_arg9 : FVec F S100x100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) (main_v33 : IVec S_ 1) : IVec S_ 1 :=
  let main_v34 : FVec F S100 .f32 := Host.absf main_arg7
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg8
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100x100 .f32 := Host.absf main_arg9
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100x100 .f32 := Host.absf main_arg10
  let main_cst_18 : FVec F S_ .f32 := constant S_ .f32 0x7F800000#32
  let main_v50 : FVec F S100x100 .f32 := broadcastInDim S100x100 ![] bcast_S_S100x100 main_cst_18
  fn_part3 (F := F) main_arg11 main_arg12 main_arg13 main_arg14 main_arg15 main_v48 main_v49 main_v50

def fn_part1 {F : FTy → Type} [FloatOps F] (main_arg4 : FVec F S16x100 .f32) (main_arg5 : FVec F S100 .f32) (main_arg6 : FVec F S100x100 .f32) (main_arg7 : FVec F S100 .f32) (main_arg8 : FVec F S100x100 .f32) (main_arg9 : FVec F S100x100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S16x100 .f32 := Host.absf main_arg4
  let main_cst_6 : FVec F S_ .f32 := constant S_ .f32 0x7F800000#32
  let main_v20 : FVec F S16x100 .f32 := broadcastInDim S16x100 ![] bcast_S_S16x100 main_cst_6
  let main_v21 : IVec S16x100 1 := cmpf .olt main_v19 main_v20
  let main_c_7 : IVec S_ 1 := constantI S_ 1 1#1
  let main_v22 : IVec S_ 1 := (fun x v => Host.reduce IntOp.andi x v reducesTo_S16x100_S_d0_1 h_S_) main_v21 main_c_7
  let main_v23 : IVec S_ 1 := andi main_v18 main_v22
  let main_v24 : FVec F S100 .f32 := Host.absf main_arg5
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg6
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S768x32 .f32) (main_arg1 : FVec F S589824x16 .f32) (main_arg2 : FVec F S32x100 .f32) (main_arg3 : FVec F S100 .f32) (main_arg4 : FVec F S16x100 .f32) (main_arg5 : FVec F S100 .f32) (main_arg6 : FVec F S100x100 .f32) (main_arg7 : FVec F S100 .f32) (main_arg8 : FVec F S100x100 .f32) (main_arg9 : FVec F S100x100 .f32) (main_arg10 : FVec F S100x100 .f32) (main_arg11 : FVec F S100 .f32) (main_arg12 : FVec F S100x100 .f32) (main_arg13 : FVec F S100 .f32) (main_arg14 : FVec F S100x100 .f32) (main_arg15 : FVec F S100 .f32) : IVec S_ 1 :=
  let main_v0 : FVec F S768x32 .f32 := Host.absf main_arg0
  let main_cst : FVec F S_ .f32 := constant S_ .f32 0x7F800000#32
  let main_v1 : FVec F S768x32 .f32 := broadcastInDim S768x32 ![] bcast_S_S768x32 main_cst
  let main_v2 : IVec S768x32 1 := cmpf .olt main_v0 main_v1
  let main_c : IVec S_ 1 := constantI S_ 1 1#1
  let main_v3 : IVec S_ 1 := (fun x v => Host.reduce IntOp.andi x v reducesTo_S768x32_S_d0_1 h_S_) main_v2 main_c
  let main_v4 : FVec F S589824x16 .f32 := Host.absf main_arg1
  let main_cst_0 : FVec F S_ .f32 := constant S_ .f32 0x7F800000#32
  let main_v5 : FVec F S589824x16 .f32 := broadcastInDim S589824x16 ![] bcast_S_S589824x16 main_cst_0
  let main_v6 : IVec S589824x16 1 := cmpf .olt main_v4 main_v5
  let main_c_1 : IVec S_ 1 := constantI S_ 1 1#1
  let main_v7 : IVec S_ 1 := (fun x v => Host.reduce IntOp.andi x v reducesTo_S589824x16_S_d0_1 h_S_) main_v6 main_c_1
  let main_v8 : IVec S_ 1 := andi main_v3 main_v7
  let main_v9 : FVec F S32x100 .f32 := Host.absf main_arg2
  let main_cst_2 : FVec F S_ .f32 := constant S_ .f32 0x7F800000#32
  let main_v10 : FVec F S32x100 .f32 := broadcastInDim S32x100 ![] bcast_S_S32x100 main_cst_2
  let main_v11 : IVec S32x100 1 := cmpf .olt main_v9 main_v10
  let main_c_3 : IVec S_ 1 := constantI S_ 1 1#1
  let main_v12 : IVec S_ 1 := (fun x v => Host.reduce IntOp.andi x v reducesTo_S32x100_S_d0_1 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S768x32 : Shape := ⟨2, ![768, 32]⟩
abbrev S589824x16 : Shape := ⟨2, ![589824, 16]⟩
abbrev S32x100 : Shape := ⟨2, ![32, 100]⟩
abbrev S100 : Shape := ⟨1, ![100]⟩
abbrev S16x100 : Shape := ⟨2, ![16, 100]⟩
abbrev S100x100 : Shape := ⟨2, ![100, 100]⟩
abbrev S768x100 : Shape := ⟨2, ![768, 100]⟩
abbrev S1x100 : Shape := ⟨2, ![1, 100]⟩
abbrev S589824x100 : Shape := ⟨2, ![589824, 100]⟩
abbrev S24576x16 : Shape := ⟨2, ![24576, 16]⟩
abbrev S24576x100 : Shape := ⟨2, ![24576, 100]⟩
abbrev S6144x100 : Shape := ⟨2, ![6144, 100]⟩
abbrev S8x100 : Shape := ⟨2, ![8, 100]⟩
abbrev S100x768 : Shape := ⟨2, ![100, 768]⟩
abbrev S8x768 : Shape := ⟨2, ![8, 768]⟩
abbrev S8x768x100 : Shape := ⟨3, ![8, 768, 100]⟩
abbrev S8x768x1 : Shape := ⟨3, ![8, 768, 1]⟩

abbrev nBuf : Space → Nat
  | .hbm => 40
  | .vmem => 63
  | .smem => 0
  | _ => 0

abbrev bufTy : (tb : Table) → Fin (tcTables nBuf tb) → BufTy
  | .hbm, ⟨0, _⟩ => ⟨S768x32, .f32⟩
  | .hbm, ⟨1, _⟩ => ⟨S589824x16, .f32⟩
  | .hbm, ⟨2, _⟩ => ⟨S32x100, .f32⟩
  | .hbm, ⟨3, _⟩ => ⟨S100, .f32⟩
  | .hbm, ⟨4, _⟩ => ⟨S16x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S100x100, .f32⟩
  | .hbm, ⟨13, _⟩ => ⟨S100, .f32⟩
  | .hbm, ⟨14, _⟩ => ⟨S100x100, .f32⟩
  | .hbm, ⟨15, _⟩ => ⟨S100, .f32⟩
  | .hbm, ⟨16, _⟩ => ⟨S768x100, .f32⟩
  | .hbm, ⟨17, _⟩ => ⟨S1x100, .f32⟩
  | .hbm, ⟨18, _⟩ => ⟨S768x100, .f32⟩
  | .hbm, ⟨19, _⟩ => ⟨S768x100, .f32⟩
  | .hbm, ⟨20, _⟩ => ⟨S1x100, .f32⟩
  | .hbm, ⟨21, _⟩ => ⟨S589824x100, .f32⟩
  | .hbm, ⟨22, _⟩ => ⟨S1x100, .f32⟩
  | .hbm, ⟨23, _⟩ => ⟨S1x100, .f32⟩
  | .hbm, ⟨24, _⟩ => ⟨S1x100, .f32⟩
  | .hbm, ⟨25, _⟩ => ⟨S1x100, .f32⟩
  | .hbm, ⟨26, _⟩ => ⟨S589824x100, .f32⟩
  | .hbm, ⟨27, _⟩ => ⟨S768x100, .f32⟩
  | .hbm, ⟨28, _⟩ => ⟨S1x100, .f32⟩
  | .hbm, ⟨29, _⟩ => ⟨S1x100, .f32⟩
  | .hbm, ⟨30, _⟩ => ⟨S1x100, .f32⟩
  | .hbm, ⟨31, _⟩ => ⟨S1x100, .f32⟩
  | .hbm, ⟨32, _⟩ => ⟨S589824x100, .f32⟩
  | .hbm, ⟨33, _⟩ => ⟨S768x100, .f32⟩
  | .hbm, ⟨34, _⟩ => ⟨S1x100, .f32⟩
  | .hbm, ⟨35, _⟩ => ⟨S1x100, .f32⟩
  | .hbm, ⟨36, _⟩ => ⟨S1x100, .f32⟩
  | .hbm, ⟨37, _⟩ => ⟨S1x100, .f32⟩
  | .hbm, ⟨38, _⟩ => ⟨S589824x100, .f32⟩
  | .hbm, ⟨39, _⟩ => ⟨S768x100, .f32⟩
  | .local _ .vmem, ⟨0, _⟩ => ⟨S24576x16, .f32⟩
  | .local _ .vmem, ⟨1, _⟩ => ⟨S24576x16, .f32⟩
  | .local _ .vmem, ⟨2, _⟩ => ⟨S16x100, .f32⟩
  | .local _ .vmem, ⟨3, _⟩ => ⟨S1x100, .f32⟩
  | .local _ .vmem, ⟨4, _⟩ => ⟨S24576x100, .f32⟩
  | .local _ .vmem, ⟨5, _⟩ => ⟨S24576x100, .f32⟩
  | .local _ .vmem, ⟨6, _⟩ => ⟨S6144x100, .f32⟩
  | .local _ .vmem, ⟨7, _⟩ => ⟨S6144x100, .f32⟩
  | .local _ .vmem, ⟨8, _⟩ => ⟨S8x100, .f32⟩
  | .local _ .vmem, ⟨9, _⟩ => ⟨S8x100, .f32⟩
  | .local _ .vmem, ⟨10, _⟩ => ⟨S768x100, .f32⟩
  | .local _ .vmem, ⟨11, _⟩ => ⟨S100x100, .f32⟩
  | .local _ .vmem, ⟨12, _⟩ => ⟨S1x100, .f32⟩
  | .local _ .vmem, ⟨13, _⟩ => ⟨S100x100, .f32⟩
  | .local _ .vmem, ⟨14, _⟩ => ⟨S100x100, .f32⟩
  | .local _ .vmem, ⟨15, _⟩ => ⟨S100x100, .f32⟩
  | .local _ .vmem, ⟨16, _⟩ => ⟨S1x100, .f32⟩
  | .local _ .vmem, ⟨17, _⟩ => ⟨S100x100, .f32⟩
  | .local _ .vmem, ⟨18, _⟩ => ⟨S1x100, .f32⟩
  | .local _ .vmem, ⟨19, _⟩ => ⟨S100x100, .f32⟩
  | .local _ .vmem, ⟨20, _⟩ => ⟨S1x100, .f32⟩
  | .local _ .vmem, ⟨21, _⟩ => ⟨S6144x100, .f32⟩
  | .local _ .vmem, ⟨22, _⟩ => ⟨S6144x100, .f32⟩
  | .local _ .vmem, ⟨23, _⟩ => ⟨S8x100, .f32⟩
  | .local _ .vmem, ⟨24, _⟩ => ⟨S8x100, .f32⟩
  | .local _ .vmem, ⟨25, _⟩ => ⟨S6144x100, .f32⟩
  | .local _ .vmem, ⟨26, _⟩ => ⟨S6144x100, .f32⟩
  | .local _ .vmem, ⟨27, _⟩ => ⟨S8x100, .f32⟩
  | .local _ .vmem, ⟨28, _⟩ => ⟨S8x100, .f32⟩
  | .local _ .vmem, ⟨29, _⟩ => ⟨S768x100, .f32⟩
  | .local _ .vmem, ⟨30, _⟩ => ⟨S100x100, .f32⟩
  | .local _ .vmem, ⟨31, _⟩ => ⟨S1x100, .f32⟩
  | .local _ .vmem, ⟨32, _⟩ => ⟨S100x100, .f32⟩
  | .local _ .vmem, ⟨33, _⟩ => ⟨S100x100, .f32⟩
  | .local _ .vmem, ⟨34, _⟩ => ⟨S100x100, .f32⟩
  | .local _ .vmem, ⟨35, _⟩ => ⟨S1x100, .f32⟩
  | .local _ .vmem, ⟨36, _⟩ => ⟨S100x100, .f32⟩
  | .local _ .vmem, ⟨37, _⟩ => ⟨S1x100, .f32⟩
  | .local _ .vmem, ⟨38, _⟩ => ⟨S100x100, .f32⟩
  | .local _ .vmem, ⟨39, _⟩ => ⟨S1x100, .f32⟩
  | .local _ .vmem, ⟨40, _⟩ => ⟨S6144x100, .f32⟩
  | .local _ .vmem, ⟨41, _⟩ => ⟨S6144x100, .f32⟩
  | .local _ .vmem, ⟨42, _⟩ => ⟨S8x100, .f32⟩
  | .local _ .vmem, ⟨43, _⟩ => ⟨S8x100, .f32⟩
  | .local _ .vmem, ⟨44, _⟩ => ⟨S6144x100, .f32⟩
  | .local _ .vmem, ⟨45, _⟩ => ⟨S6144x100, .f32⟩
  | .local _ .vmem, ⟨46, _⟩ => ⟨S8x100, .f32⟩
  | .local _ .vmem, ⟨47, _⟩ => ⟨S8x100, .f32⟩
  | .local _ .vmem, ⟨48, _⟩ => ⟨S768x100, .f32⟩
  | .local _ .vmem, ⟨49, _⟩ => ⟨S100x100, .f32⟩
  | .local _ .vmem, ⟨50, _⟩ => ⟨S1x100, .f32⟩
  | .local _ .vmem, ⟨51, _⟩ => ⟨S100x100, .f32⟩
  | .local _ .vmem, ⟨52, _⟩ => ⟨S100x100, .f32⟩
  | .local _ .vmem, ⟨53, _⟩ => ⟨S100x100, .f32⟩
  | .local _ .vmem, ⟨54, _⟩ => ⟨S1x100, .f32⟩
  | .local _ .vmem, ⟨55, _⟩ => ⟨S100x100, .f32⟩
  | .local _ .vmem, ⟨56, _⟩ => ⟨S1x100, .f32⟩
  | .local _ .vmem, ⟨57, _⟩ => ⟨S100x100, .f32⟩
  | .local _ .vmem, ⟨58, _⟩ => ⟨S1x100, .f32⟩
  | .local _ .vmem, ⟨59, _⟩ => ⟨S6144x100, .f32⟩
  | .local _ .vmem, ⟨60, _⟩ => ⟨S6144x100, .f32⟩
  | .local _ .vmem, ⟨61, _⟩ => ⟨S8x100, .f32⟩
  | .local _ .vmem, ⟨62, _⟩ => ⟨S8x100, .f32⟩
  | _, _ => ⟨S768x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15_0 : Ref sig .tc := ⟨.hbm, 32, rfl⟩
abbrev main_v15_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg13_1 : Ref sig .tc := ⟨.vmem, 22, rfl⟩
abbrev cc1_stg14_0 : Ref sig .tc := ⟨.vmem, 23, rfl⟩
abbrev cc1_stg14_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg11_0 : Ref sig .tc := ⟨.vmem, 38, rfl⟩
abbrev cc2_stg12_0 : Ref sig .tc := ⟨.vmem, 39, rfl⟩
abbrev cc2_stg13_0 : Ref sig .tc := ⟨.vmem, 40, rfl⟩
abbrev cc2_stg13_1 : Ref sig .tc := ⟨.vmem, 41, rfl⟩
abbrev cc2_stg14_0 : Ref sig .tc := ⟨.vmem, 42, rfl⟩
abbrev cc2_stg14_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg8_0 : Ref sig .tc := ⟨.vmem, 54, rfl⟩
abbrev cc3_stg9_0 : Ref sig .tc := ⟨.vmem, 55, rfl⟩
abbrev cc3_stg10_0 : Ref sig .tc := ⟨.vmem, 56, rfl⟩
abbrev cc3_stg11_0 : Ref sig .tc := ⟨.vmem, 57, rfl⟩
abbrev cc3_stg12_0 : Ref sig .tc := ⟨.vmem, 58, rfl⟩
abbrev cc3_stg13_0 : Ref sig .tc := ⟨.vmem, 59, rfl⟩
abbrev cc3_stg13_1 : Ref sig .tc := ⟨.vmem, 60, rfl⟩
abbrev cc3_stg14_0 : Ref sig .tc := ⟨.vmem, 61, rfl⟩
abbrev cc3_stg14_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22
abbrev cc1_sem14_0 : DmaSem sig := 23
abbrev cc1_sem14_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem13_1 : DmaSem sig := 41
abbrev cc2_sem14_0 : DmaSem sig := 42
abbrev cc2_sem14_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem8_0 : DmaSem sig := 54
abbrev cc3_sem9_0 : DmaSem sig := 55
abbrev cc3_sem10_0 : DmaSem sig := 56
abbrev cc3_sem11_0 : DmaSem sig := 57
abbrev cc3_sem12_0 : DmaSem sig := 58
abbrev cc3_sem13_0 : DmaSem sig := 59
abbrev cc3_sem13_1 : DmaSem sig := 60
abbrev cc3_sem14_0 : DmaSem sig := 61
abbrev cc3_sem14_1 : DmaSem sig := 62

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24576x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24576x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6144x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S100x100 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x100 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S100x100 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x100 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S6144x100 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S8x100 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨1, ![96], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6144x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S100x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S100x100 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S100x100 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x100 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S100x100 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x100 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S100x100 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x100 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S6144x100 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S8x100 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev grid3 : Pipeline.Grid := ⟨1, ![96], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6144x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S768x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x100 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S100x100 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S100x100 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S100x100 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x100 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S100x100 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x100 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S100x100 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x100 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S6144x100 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S8x100 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

class Facts₀ : Prop where
  bcast_S100_S1x100_1 : S100.BroadcastsInDim S1x100 (![1] : Fin 1 → Fin S1x100.rank)
  bcast_S1x100_S768x100_0_1 : S1x100.BroadcastsInDim S768x100 (![0, 1] : Fin 2 → Fin S768x100.rank)
  shapeCasts_S100_S1x100 : S100.ShapeCasts S1x100
  inb_S24576x16_S24576x16_0_0 : ∀ a, (![0, 0] : Fin 2 → Nat) a + S24576x16.size a ≤ S24576x16.size a
  h_S24576x16 : 0 < S24576x16.numel
  bitsLt_bf16_f32 : FTy.bits .bf16 < FTy.bits .f32
  inb_S16x100_S16x100_0_0 : ∀ a, (![0, 0] : Fin 2 → Nat) a + S16x100.size a ≤ S16x100.size a
  h_S16x100 : 0 < S16x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S24576x100 : S1x100.Broadcasts S24576x100
  inb_S24576x100_S24576x100_0_0 : ∀ a, (![0, 0] : Fin 2 → Nat) a + S24576x100.size a ≤ S24576x100.size a
  h_S24576x100 : 0 < S24576x100.numel
  inb_S6144x100_S6144x100_0_0 : ∀ a, (![0, 0] : Fin 2 → Nat) a + S6144x100.size a ≤ S6144x100.size a
  h_S6144x100 : 0 < S6144x100.numel
  shapeCasts_S6144x100_S6144x100 : S6144x100.ShapeCasts S6144x100
  inb_S100x100_S100x100_0_0 : ∀ a, (![0, 0] : Fin 2 → Nat) a + S100x100.size a ≤ S100x100.size a
  h_S100x100 : 0 < S100x100.numel
  broadcasts_S1x100_S6144x100 : S1x100.Broadcasts S6144x100
  inb_S8x100_S8x100_0_0 : ∀ a, (![0, 0] : Fin 2 → Nat) a + S8x100.size a ≤ S8x100.size a
  h_S8x100 : 0 < S8x100.numel
  shapeCasts_S8x100_S8x100 : S8x100.ShapeCasts S8x100
  inb_S768x100_S768x100_0_0 : ∀ a, (![0, 0] : Fin 2 → Nat) a + S768x100.size a ≤ S768x100.size a
  h_S768x100 : 0 < S768x100.numel
  shapeCasts_S768x100_S768x100 : S768x100.ShapeCasts S768x100
  transposes_S768x100_p1_0_S100x768 : S768x100.Transposes [1, 0] S100x768
  shapeCasts_S6144x100_S8x768x100 : S6144x100.ShapeCasts S8x768x100
  shapeCasts_S8x768_S8x768x1 : S8x768.ShapeCasts S8x768x1
  broadcasts_S8x768x1_S8x768x100 : S8x768x1.Broadcasts S8x768x100
  shapeCasts_S8x768x100_S6144x100 : S8x768x100.ShapeCasts S6144x100
  reduces_S8x768x100_S8x100 : S8x768x100.Reduces [1] S8x100
  broadcasts_S1x100_S8x100 : S1x100.Broadcasts S8x100
  dot_S768x32_S32x100_S768x100_1_0_0_1_n_n_wf : DotDims.WF S768x32 S32x100 S768x100 [1] [0] [0] [1] [] []
  dot_S24576x16_S16x100_S24576x100_1_0_0_1_n_n_wf : DotDims.WF S24576x16 S16x100 S24576x100 [1] [0] [0] [1] [] []
  dot_S6144x100_S100x100_S6144x100_1_0_0_1_n_n_wf : DotDims.WF S6144x100 S100x100 S6144x100 [1] [0] [0] [1] [] []
  dot_S8x100_S100x100_S8x100_1_0_0_1_n_n_wf : DotDims.WF S8x100 S100x100 S8x100 [1] [0] [0] [1] [] []
  dot_S768x100_S100x100_S768x100_1_0_0_1_n_n_wf : DotDims.WF S768x100 S100x100 S768x100 [1] [0] [0] [1] [] []
  dot_S8x100_S100x768_S8x768_1_0_0_1_n_n_wf : DotDims.WF S8x100 S100x768 S8x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24576x16.size a ≤ S589824x16.size a
  hwx0_0 : ∀ i : grid0.Coords, EltTy.bits .f32 = 32 ∨ (Rect.block (s := S589824x16) S24576x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x100.size a ≤ S16x100.size a
  hwx0_1 : ∀ i : grid0.Coords, EltTy.bits .f32 = 32 ∨ (Rect.block (s := S16x100) S16x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S24576x100.size a ≤ S589824x100.size a
  hwx0_3 : ∀ i : grid0.Coords, EltTy.bits .f32 = 32 ∨ (Rect.block (s := S589824x100) S24576x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6144x100.size a ≤ S589824x100.size a
  hwx1_0 : ∀ i : grid1.Coords, EltTy.bits .f32 = 32 ∨ (Rect.block (s := S589824x100) S6144x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x100.size a ≤ S768x100.size a
  hwx1_1 : ∀ i : grid1.Coords, EltTy.bits .f32 = 32 ∨ (Rect.block (s := S768x100) S8x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x100.size a ≤ S768x100.size a
  hwx1_2 : ∀ i : grid1.Coords, EltTy.bits .f32 = 32 ∨ (Rect.block (s := S768x100) S768x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x100.size a ≤ S100x100.size a
  hwx1_3 : ∀ i : grid1.Coords, EltTy.bits .f32 = 32 ∨ (Rect.block (s := S100x100) S100x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x100.size a ≤ S100x100.size a
  hwx1_5 : ∀ i : grid1.Coords, EltTy.bits .f32 = 32 ∨ (Rect.block (s := S100x100) S100x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100x100.size a ≤ S100x100.size a
  hwx1_6 : ∀ i : grid1.Coords, EltTy.bits .f32 = 32 ∨ (Rect.block (s := S100x100) S100x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x100.size a ≤ S100x100.size a
  hwx1_7 : ∀ i : grid1.Coords, EltTy.bits .f32 = 32 ∨ (Rect.block (s := S100x100) S100x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x100.size a ≤ S1x100.size a
  hwx1_8 : ∀ i : grid1.Coords, EltTy.bits .f32 = 32 ∨ (Rect.block (s := S1x100) S1x100.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S100x100.size a ≤ S100x100.size a
  hwx1_9 : ∀ i : grid1.Coords, EltTy.bits .f32 = 32 ∨ (Rect.block (s := S100x100) S100x100.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x100.size a ≤ S1x100.size a
  hwx1_10 : ∀ i : grid1.Coords, EltTy.bits .f32 = 32 ∨ (Rect.block (s := S1x100) S1x100.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S100x100.size a ≤ S100x100.size a
  hwx1_11 : ∀ i : grid1.Coords, EltTy.bits .f32 = 32 ∨ (Rect.block (s := S100x100) S100x100.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x100.size a ≤ S1x100.size a
  hwx1_12 : ∀ i : grid1.Coords, EltTy.bits .f32 = 32 ∨ (Rect.block (s := S1x100) S1x100.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S6144x100.size a ≤ S589824x100.size a
  hwx1_13 : ∀ i : grid1.Coords, EltTy.bits .f32 = 32 ∨ (Rect.block (s := S589824x100) S6144x100.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S8x100.size a ≤ S768x100.size a
  hwx1_14 : ∀ i : grid1.Coords, EltTy.bits .f32 = 32 ∨ (Rect.block (s := S768x100) S8x100.size (cc1_transform_14 i) (hinb1_14 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6144x100.size a ≤ S589824x100.size a
  hwx2_0 : ∀ i : grid2.Coords, EltTy.bits .f32 = 32 ∨ (Rect.block (s := S589824x100) S6144x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x100.size a ≤ S768x100.size a
  hwx2_1 : ∀ i : grid2.Coords, EltTy.bits .f32 = 32 ∨ (Rect.block (s := S768x100) S8x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x100.size a ≤ S768x100.size a
  hwx2_2 : ∀ i : grid2.Coords, EltTy.bits .f32 = 32 ∨ (Rect.block (s := S768x100) S768x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x100.size a ≤ S100x100.size a
  hwx2_3 : ∀ i : grid2.Coords, EltTy.bits .f32 = 32 ∨ (Rect.block (s := S100x100) S100x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S100x100.size a ≤ S100x100.size a
  hwx2_5 : ∀ i : grid2.Coords, EltTy.bits .f32 = 32 ∨ (Rect.block (s := S100x100) S100x100.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S100x100.size a ≤ S100x100.size a
  hwx2_6 : ∀ i : grid2.Coords, EltTy.bits .f32 = 32 ∨ (Rect.block (s := S100x100) S100x100.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S100x100.size a ≤ S100x100.size a
  hwx2_7 : ∀ i : grid2.Coords, EltTy.bits .f32 = 32 ∨ (Rect.block (s := S100x100) S100x100.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x100.size a ≤ S1x100.size a
  hwx2_8 : ∀ i : grid2.Coords, EltTy.bits .f32 = 32 ∨ (Rect.block (s := S1x100) S1x100.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S100x100.size a ≤ S100x100.size a
  hwx2_9 : ∀ i : grid2.Coords, EltTy.bits .f32 = 32 ∨ (Rect.block (s := S100x100) S100x100.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x100.size a ≤ S1x100.size a
  hwx2_10 : ∀ i : grid2.Coords, EltTy.bits .f32 = 32 ∨ (Rect.block (s := S1x100) S1x100.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S100x100.size a ≤ S100x100.size a
  hwx2_11 : ∀ i : grid2.Coords, EltTy.bits .f32 = 32 ∨ (Rect.block (s := S100x100) S100x100.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x100.size a ≤ S1x100.size a
  hwx2_12 : ∀ i : grid2.Coords, EltTy.bits .f32 = 32 ∨ (Rect.block (s := S1x100) S1x100.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S6144x100.size a ≤ S589824x100.size a
  hwx2_13 : ∀ i : grid2.Coords, EltTy.bits .f32 = 32 ∨ (Rect.block (s := S589824x100) S6144x100.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S8x100.size a ≤ S768x100.size a
  hwx2_14 : ∀ i : grid2.Coords, EltTy.bits .f32 = 32 ∨ (Rect.block (s := S768x100) S8x100.size (cc2_transform_14 i) (hinb2_14 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6144x100.size a ≤ S589824x100.size a
  hwx3_0 : ∀ i : grid3.Coords, EltTy.bits .f32 = 32 ∨ (Rect.block (s := S589824x100) S6144x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x100.size a ≤ S768x100.size a
  hwx3_1 : ∀ i : grid3.Coords, EltTy.bits .f32 = 32 ∨ (Rect.block (s := S768x100) S8x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S768x100.size a ≤ S768x100.size a
  hwx3_2 : ∀ i : grid3.Coords, EltTy.bits .f32 = 32 ∨ (Rect.block (s := S768x100) S768x100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x100.size a ≤ S100x100.size a
  hwx3_3 : ∀ i : grid3.Coords, EltTy.bits .f32 = 32 ∨ (Rect.block (s := S100x100) S100x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x100.size a ≤ S1x100.size a
  hwx3_4 : ∀ i : grid3.Coords, EltTy.bits .f32 = 32 ∨ (Rect.block (s := S1x100) S1x100.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S100x100.size a ≤ S100x100.size a
  hwx3_5 : ∀ i : grid3.Coords, EltTy.bits .f32 = 32 ∨ (Rect.block (s := S100x100) S100x100.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S100x100.size a ≤ S100x100.size a
  hwx3_6 : ∀ i : grid3.Coords, EltTy.bits .f32 = 32 ∨ (Rect.block (s := S100x100) S100x100.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S100x100.size a ≤ S100x100.size a
  hwx3_7 : ∀ i : grid3.Coords, EltTy.bits .f32 = 32 ∨ (Rect.block (s := S100x100) S100x100.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x100.size a ≤ S1x100.size a
  hwx3_8 : ∀ i : grid3.Coords, EltTy.bits .f32 = 32 ∨ (Rect.block (s := S1x100) S1x100.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S100x100.size a ≤ S100x100.size a
  hwx3_9 : ∀ i : grid3.Coords, EltTy.bits .f32 = 32 ∨ (Rect.block (s := S100x100) S100x100.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x100.size a ≤ S1x100.size a
  hwx3_10 : ∀ i : grid3.Coords, EltTy.bits .f32 = 32 ∨ (Rect.block (s := S1x100) S1x100.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S100x100.size a ≤ S100x100.size a
  hwx3_11 : ∀ i : grid3.Coords, EltTy.bits .f32 = 32 ∨ (Rect.block (s := S100x100) S100x100.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x100.size a ≤ S1x100.size a
  hwx3_12 : ∀ i : grid3.Coords, EltTy.bits .f32 = 32 ∨ (Rect.block (s := S1x100) S1x100.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S6144x100.size a ≤ S589824x100.size a
  hwx3_13 : ∀ i : grid3.Coords, EltTy.bits .f32 = 32 ∨ (Rect.block (s := S589824x100) S6144x100.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S8x100.size a ≤ S768x100.size a
  hwx3_14 : ∀ i : grid3.Coords, EltTy.bits .f32 = 32 ∨ (Rect.block (s := S768x100) S8x100.size (cc3_transform_14 i) (hinb3_14 i)).WholeWords (EltTy.packing .f32)

variable [Facts₀]

def dot_S768x32_S32x100_S768x100_1_0_0_1_n_n : DotDims S768x32 S32x100 S768x100 where
  lhsContracting := [1]
  rhsContracting := [0]
  lhsNonContracting := [0]
  rhsNonContracting := [1]
  lhsBatch := []
  rhsBatch := []
  wf := dot_S768x32_S32x100_S768x100_1_0_0_1_n_n_wf
def dot_S24576x16_S16x100_S24576x100_1_0_0_1_n_n : DotDims S24576x16 S16x100 S24576x100 where
  lhsContracting := [1]
  rhsContracting := [0]
  lhsNonContracting := [0]
  rhsNonContracting := [1]
  lhsBatch := []
  rhsBatch := []
  wf := dot_S24576x16_S16x100_S24576x100_1_0_0_1_n_n_wf
def dot_S6144x100_S100x100_S6144x100_1_0_0_1_n_n : DotDims S6144x100 S100x100 S6144x100 where
  lhsContracting := [1]
  rhsContracting := [0]
  lhsNonContracting := [0]
  rhsNonContracting := [1]
  lhsBatch := []
  rhsBatch := []
  wf := dot_S6144x100_S100x100_S6144x100_1_0_0_1_n_n_wf
def dot_S8x100_S100x100_S8x100_1_0_0_1_n_n : DotDims S8x100 S100x100 S8x100 where
  lhsContracting := [1]
  rhsContracting := [0]
  lhsNonContracting := [0]
  rhsNonContracting := [1]
  lhsBatch := []
  rhsBatch := []
  wf := dot_S8x100_S100x100_S8x100_1_0_0_1_n_n_wf
def dot_S768x100_S100x100_S768x100_1_0_0_1_n_n : DotDims S768x100 S100x100 S768x100 where
  lhsContracting := [1]
  rhsContracting := [0]
  lhsNonContracting := [0]
  rhsNonContracting := [1]
  lhsBatch := []
  rhsBatch := []
  wf := dot_S768x100_S100x100_S768x100_1_0_0_1_n_n_wf
def dot_S8x100_S100x768_S8x768_1_0_0_1_n_n : DotDims S8x100 S100x768 S8x768 where
  lhsContracting := [1]
  rhsContracting := [0]
  lhsNonContracting := [0]
  rhsNonContracting := [1]
  lhsBatch := []
  rhsBatch := []
  wf := dot_S8x100_S100x768_S8x768_1_0_0_1_n_n_wf

abbrev win0_0 : Pipeline.Window sig grid0 :=
  Pipeline.Window.ofSpec (Memref.whole main_arg1) S24576x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S24576x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S6144x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S768x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S100x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S100x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S100x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S100x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S100x100.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v8) S1x100.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg14) S100x100.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v9) S1x100.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v10_0) S6144x100.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v10_1) S8x100.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

abbrev win2_0 : Pipeline.Window sig grid2 :=
  Pipeline.Window.ofSpec (Memref.whole main_v10_0) S6144x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_1) S8x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10_1) S768x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S100x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S100x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S100x100.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S100x100.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v12) S1x100.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg12) S100x100.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v13) S1x100.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg14) S100x100.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v14) S1x100.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v15_0) S6144x100.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v15_1) S8x100.size cc2_transform_14 reads2_14 true false 2 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev win3_0 : Pipeline.Window sig grid3 :=
  Pipeline.Window.ofSpec (Memref.whole main_v15_0) S6144x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15_1) S8x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15_1) S768x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S100x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v16) S1x100.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S100x100.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S100x100.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S100x100.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v17) S1x100.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg12) S100x100.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v18) S1x100.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg14) S100x100.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v19) S1x100.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v20_0) S6144x100.size cc3_transform_13 reads3_13 true false 2 stage3_13 sem3_13
    hrank3 hreads3_13 hinb3_13 nbuf3_13 (Memref.isWhole_whole _) hwx3_13 hstage3_13

abbrev win3_14 : Pipeline.Window sig grid3 :=
  Pipeline.Window.ofSpec (Memref.whole main_v20_1) S8x100.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S768x32 : Shape := ⟨2, ![768, 32]⟩
abbrev S589824x16 : Shape := ⟨2, ![589824, 16]⟩
abbrev S32x100 : Shape := ⟨2, ![32, 100]⟩
abbrev S100 : Shape := ⟨1, ![100]⟩
abbrev S16x100 : Shape := ⟨2, ![16, 100]⟩
abbrev S100x100 : Shape := ⟨2, ![100, 100]⟩
abbrev S768x100 : Shape := ⟨2, ![768, 100]⟩
abbrev S1x100 : Shape := ⟨2, ![1, 100]⟩
abbrev S589824x100 : Shape := ⟨2, ![589824, 100]⟩
abbrev S100x768 : Shape := ⟨2, ![100, 768]⟩
abbrev S768x768 : Shape := ⟨2, ![768, 768]⟩
abbrev S589824x1 : Shape := ⟨2, ![589824, 1]⟩
abbrev S_ : Shape := ⟨0, ![]⟩
abbrev S768x768x100 : Shape := ⟨3, ![768, 768, 100]⟩

abbrev nBuf : Space → Nat
  | .hbm => 117
  | .vmem => 0
  | .smem => 0
  | _ => 0

abbrev bufTy : (tb : Table) → Fin (tcTables nBuf tb) → BufTy
  | .hbm, ⟨0, _⟩ => ⟨S768x32, .f32⟩
  | .hbm, ⟨1, _⟩ => ⟨S589824x16, .f32⟩
  | .hbm, ⟨2, _⟩ => ⟨S32x100, .f32⟩
  | .hbm, ⟨3, _⟩ => ⟨S100, .f32⟩
  | .hbm, ⟨4, _⟩ => ⟨S16x100, .f32⟩
  | .hbm, ⟨5, _⟩ => ⟨S100, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S100x100, .f32⟩
  | .hbm, ⟨13, _⟩ => ⟨S100, .f32⟩
  | .hbm, ⟨14, _⟩ => ⟨S100x100, .f32⟩
  | .hbm, ⟨15, _⟩ => ⟨S100, .f32⟩
  | .hbm, ⟨16, _⟩ => ⟨S768x100, .f32⟩
  | .hbm, ⟨17, _⟩ => ⟨S1x100, .f32⟩
  | .hbm, ⟨18, _⟩ => ⟨S768x100, .f32⟩
  | .hbm, ⟨19, _⟩ => ⟨S768x100, .f32⟩
  | .hbm, ⟨20, _⟩ => ⟨S589824x100, .f32⟩
  | .hbm, ⟨21, _⟩ => ⟨S1x100, .f32⟩
  | .hbm, ⟨22, _⟩ => ⟨S589824x100, .f32⟩
  | .hbm, ⟨23, _⟩ => ⟨S589824x100, .f32⟩
  | .hbm, ⟨24, _⟩ => ⟨S589824x100, .f32⟩
  | .hbm, ⟨25, _⟩ => ⟨S1x100, .f32⟩
  | .hbm, ⟨26, _⟩ => ⟨S589824x100, .f32⟩
  | .hbm, ⟨27, _⟩ => ⟨S589824x100, .f32⟩
  | .hbm, ⟨28, _⟩ => ⟨S768x100, .f32⟩
  | .hbm, ⟨29, _⟩ => ⟨S768x100, .f32⟩
  | .hbm, ⟨30, _⟩ => ⟨S100x768, .f32⟩
  | .hbm, ⟨31, _⟩ => ⟨S768x768, .f32⟩
  | .hbm, ⟨32, _⟩ => ⟨S589824x1, .f32⟩
  | .hbm, ⟨33, _⟩ => ⟨S589824x100, .f32⟩
  | .hbm, ⟨34, _⟩ => ⟨S589824x100, .f32⟩
  | .hbm, ⟨35, _⟩ => ⟨S_, .f32⟩
  | .hbm, ⟨36, _⟩ => ⟨S589824x100, .f32⟩
  | .hbm, ⟨37, _⟩ => ⟨S589824x100, .f32⟩
  | .hbm, ⟨38, _⟩ => ⟨S589824x100, .f32⟩
  | .hbm, ⟨39, _⟩ => ⟨S1x100, .f32⟩
  | .hbm, ⟨40, _⟩ => ⟨S589824x100, .f32⟩
  | .hbm, ⟨41, _⟩ => ⟨S589824x100, .f32⟩
  | .hbm, ⟨42, _⟩ => ⟨S589824x100, .f32⟩
  | .hbm, ⟨43, _⟩ => ⟨S589824x100, .f32⟩
  | .hbm, ⟨44, _⟩ => ⟨S1x100, .f32⟩
  | .hbm, ⟨45, _⟩ => ⟨S589824x100, .f32⟩
  | .hbm, ⟨46, _⟩ => ⟨S589824x100, .f32⟩
  | .hbm, ⟨47, _⟩ => ⟨S768x768x100, .f32⟩
  | .hbm, ⟨48, _⟩ => ⟨S_, .f32⟩
  | .hbm, ⟨49, _⟩ => ⟨S768x100, .f32⟩
  | .hbm, ⟨50, _⟩ => ⟨S768x100, .f32⟩
  | .hbm, ⟨51, _⟩ => ⟨S1x100, .f32⟩
  | .hbm, ⟨52, _⟩ => ⟨S768x100, .f32⟩
  | .hbm, ⟨53, _⟩ => ⟨S768x100, .f32⟩
  | .hbm, ⟨54, _⟩ => ⟨S768x100, .f32⟩
  | .hbm, ⟨55, _⟩ => ⟨S589824x100, .f32⟩
  | .hbm, ⟨56, _⟩ => ⟨S1x100, .f32⟩
  | .hbm, ⟨57, _⟩ => ⟨S589824x100, .f32⟩
  | .hbm, ⟨58, _⟩ => ⟨S589824x100, .f32⟩
  | .hbm, ⟨59, _⟩ => ⟨S768x100, .f32⟩
  | .hbm, ⟨60, _⟩ => ⟨S768x100, .f32⟩
  | .hbm, ⟨61, _⟩ => ⟨S100x768, .f32⟩
  | .hbm, ⟨62, _⟩ => ⟨S768x768, .f32⟩
  | .hbm, ⟨63, _⟩ => ⟨S589824x1, .f32⟩
  | .hbm, ⟨64, _⟩ => ⟨S589824x100, .f32⟩
  | .hbm, ⟨65, _⟩ => ⟨S589824x100, .f32⟩
  | .hbm, ⟨66, _⟩ => ⟨S_, .f32⟩
  | .hbm, ⟨67, _⟩ => ⟨S589824x100, .f32⟩
  | .hbm, ⟨68, _⟩ => ⟨S589824x100, .f32⟩
  | .hbm, ⟨69, _⟩ => ⟨S589824x100, .f32⟩
  | .hbm, ⟨70, _⟩ => ⟨S1x100, .f32⟩
  | .hbm, ⟨71, _⟩ => ⟨S589824x100, .f32⟩
  | .hbm, ⟨72, _⟩ => ⟨S589824x100, .f32⟩
  | .hbm, ⟨73, _⟩ => ⟨S589824x100, .f32⟩
  | .hbm, ⟨74, _⟩ => ⟨S589824x100, .f32⟩
  | .hbm, ⟨75, _⟩ => ⟨S1x100, .f32⟩
  | .hbm, ⟨76, _⟩ => ⟨S589824x100, .f32⟩
  | .hbm, ⟨77, _⟩ => ⟨S589824x100, .f32⟩
  | .hbm, ⟨78, _⟩ => ⟨S768x768x100, .f32⟩
  | .hbm, ⟨79, _⟩ => ⟨S_, .f32⟩
  | .hbm, ⟨80, _⟩ => ⟨S768x100, .f32⟩
  | .hbm, ⟨81, _⟩ => ⟨S768x100, .f32⟩
  | .hbm, ⟨82, _⟩ => ⟨S1x100, .f32⟩
  | .hbm, ⟨83, _⟩ => ⟨S768x100, .f32⟩
  | .hbm, ⟨84, _⟩ => ⟨S768x100, .f32⟩
  | .hbm, ⟨85, _⟩ => ⟨S768x100, .f32⟩
  | .hbm, ⟨86, _⟩ => ⟨S589824x100, .f32⟩
  | .hbm, ⟨87, _⟩ => ⟨S1x100, .f32⟩
  | .hbm, ⟨88, _⟩ => ⟨S589824x100, .f32⟩
  | .hbm, ⟨89, _⟩ => ⟨S589824x100, .f32⟩
  | .hbm, ⟨90, _⟩ => ⟨S768x100, .f32⟩
  | .hbm, ⟨91, _⟩ => ⟨S768x100, .f32⟩
  | .hbm, ⟨92, _⟩ => ⟨S100x768, .f32⟩
  | .hbm, ⟨93, _⟩ => ⟨S768x768, .f32⟩
  | .hbm, ⟨94, _⟩ => ⟨S589824x1, .f32⟩
  | .hbm, ⟨95, _⟩ => ⟨S589824x100, .f32⟩
  | .hbm, ⟨96, _⟩ => ⟨S589824x100, .f32⟩
  | .hbm, ⟨97, _⟩ => ⟨S_, .f32⟩
  | .hbm, ⟨98, _⟩ => ⟨S589824x100, .f32⟩
  | .hbm, ⟨99, _⟩ => ⟨S589824x100, .f32⟩
  | .hbm, ⟨100, _⟩ => ⟨S589824x100, .f32⟩
  | .hbm, ⟨101, _⟩ => ⟨S1x100, .f32⟩
  | .hbm, ⟨102, _⟩ => ⟨S589824x100, .f32⟩
  | .hbm, ⟨103, _⟩ => ⟨S589824x100, .f32⟩
  | .hbm, ⟨104, _⟩ => ⟨S589824x100, .f32⟩
  | .hbm, ⟨105, _⟩ => ⟨S589824x100, .f32⟩
  | .hbm, ⟨106, _⟩ => ⟨S1x100, .f32⟩
  | .hbm, ⟨107, _⟩ => ⟨S589824x100, .f32⟩
  | .hbm, ⟨108, _⟩ => ⟨S589824x100, .f32⟩
  | .hbm, ⟨109, _⟩ => ⟨S768x768x100, .f32⟩
  | .hbm, ⟨110, _⟩ => ⟨S_, .f32⟩
  | .hbm, ⟨111, _⟩ => ⟨S768x100, .f32⟩
  | .hbm, ⟨112, _⟩ => ⟨S768x100, .f32⟩
  | .hbm, ⟨113, _⟩ => ⟨S1x100, .f32⟩
  | .hbm, ⟨114, _⟩ => ⟨S768x100, .f32⟩
  | .hbm, ⟨115, _⟩ => ⟨S768x100, .f32⟩
  | .hbm, ⟨116, _⟩ => ⟨S768x100, .f32⟩
  | _, _ => ⟨S768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call2_cst : Ref sig .tc := ⟨.hbm, 97, rfl⟩
abbrev main_call2_v0 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_1 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S768x100_0_1 : S1x100.BroadcastsInDim S768x100 (![0, 1] : Fin 2 → Fin S768x100.rank)
  bcast_S1x100_S589824x100_0_1 : S1x100.BroadcastsInDim S589824x100 (![0, 1] : Fin 2 → Fin S589824x100.rank)
  transposes_S768x100_S100x768_1_0 : S768x100.Transposes [1, 0] S100x768
  shapeCasts_S768x768_S589824x1 : S768x768.ShapeCasts S589824x1
  bcast_S589824x1_S589824x100_0_1 : S589824x1.BroadcastsInDim S589824x100 (![0, 1] : Fin 2 → Fin S589824x100.rank)
  bcast_S_S589824x100 : S_.BroadcastsInDim S589824x100 (![] : Fin 0 → Fin S589824x100.rank)
  shapeCasts_S589824x100_S768x768x100 : S589824x100.ShapeCasts S768x768x100
  reducesTo_S768x768x100_S768x100_d1 : S768x768x100.ReducesTo [1] S768x100
  h_S_ : 0 < S_.numel
  dot_S768x32_S32x100_S768x100_1_0_0_1_n_n_wf : DotDims.WF S768x32 S32x100 S768x100 [1] [0] [0] [1] [] []
  dot_S589824x16_S16x100_S589824x100_1_0_0_1_n_n_wf : DotDims.WF S589824x16 S16x100 S589824x100 [1] [0] [0] [1] [] []
  dot_S589824x100_S100x100_S589824x100_1_0_0_1_n_n_wf : DotDims.WF S589824x100 S100x100 S589824x100 [1] [0] [0] [1] [] []
  dot_S768x100_S100x100_S768x100_1_0_0_1_n_n_wf : DotDims.WF S768x100 S100x100 S768x100 [1] [0] [0] [1] [] []
  dot_S768x100_S100x768_S768x768_1_0_0_1_n_n_wf : DotDims.WF S768x100 S100x768 S768x768 [1] [0] [0] [1] [] []

variable [Facts₀]

def dot_S768x32_S32x100_S768x100_1_0_0_1_n_n : DotDims S768x32 S32x100 S768x100 where
  lhsContracting := [1]
  rhsContracting := [0]
  lhsNonContracting := [0]
  rhsNonContracting := [1]
  lhsBatch := []
  rhsBatch := []
  wf := dot_S768x32_S32x100_S768x100_1_0_0_1_n_n_wf
def dot_S589824x16_S16x100_S589824x100_1_0_0_1_n_n : DotDims S589824x16 S16x100 S589824x100 where
  lhsContracting := [1]
  rhsContracting := [0]
  lhsNonContracting := [0]
  rhsNonContracting := [1]
  lhsBatch := []
  rhsBatch := []
  wf := dot_S589824x16_S16x100_S589824x100_1_0_0_1_n_n_wf
def dot_S589824x100_S100x100_S589824x100_1_0_0_1_n_n : DotDims S589824x100 S100x100 S589824x100 where
  lhsContracting := [1]
  rhsContracting := [0]
  lhsNonContracting := [0]
  rhsNonContracting := [1]
  lhsBatch := []
  rhsBatch := []
  wf := dot_S589824x100_S100x100_S589824x100_1_0_0_1_n_n_wf
def dot_S768x100_S100x100_S768x100_1_0_0_1_n_n : DotDims S768x100 S100x100 S768x100 where
  lhsContracting := [1]
  rhsContracting := [0]
  lhsNonContracting := [0]
  rhsNonContracting := [1]
  lhsBatch := []
  rhsBatch := []
  wf := dot_S768x100_S100x100_S768x100_1_0_0_1_n_n_wf
def dot_S768x100_S100x768_S768x768_1_0_0_1_n_n : DotDims S768x100 S100x768 S768x768 where
  lhsContracting := [1]
  rhsContracting := [0]
  lhsNonContracting := [0]
  rhsNonContracting := [1]
  lhsBatch := []
  rhsBatch := []
  wf := dot_S768x100_S100x768_S768x768_1_0_0_1_n_n_wf

class Facts : Prop extends Facts₀ where

variable [Facts]
-- ==== Proof.K.Body0.lean ====
import proofs.«113144_j23983097381472_1_alg».proof.Proof.Gen.Kernel.Launch
import proofs.«113144_j23983097381472_1_alg».proof.Proof.Gen.Kernel.Skeleton
import proofs.«113144_j23983097381472_1_alg».proof.Proof.Gen.Kernel.Points
import Idealize.ShloMosaic.Lib.Pipeline.FrameBody
import Idealize.ShloMosaic.Lib.Tactic

noncomputable section

namespace Cert.Kernel.Hand

open Cert.Kernel.Gen Idealize.ShloMosaic Idealize.ShloMosaic.TcCoe Idealize.ShloMosaic.Tactic
open Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S24576x16 := Rect.unit (s := S24576x16) ![0, 0] S24576x16.size inb_S24576x16_S24576x16_0_0
abbrev r0_w : Rect S16x100 := Rect.unit (s := S16x100) ![0, 0] S16x100.size inb_S16x100_S16x100_0_0
abbrev r0_b : Rect S1x100 := Rect.unit (s := S1x100) ![0, 0] S1x100.size inb_S1x100_S1x100_0_0
abbrev r0_o : Rect S24576x100 := Rect.unit (s := S24576x100) ![0, 0] S24576x100.size inb_S24576x100_S24576x100_0_0

def out0_3 (x0 : Vec F S24576x16 .f32) (x1 : Vec F S16x100 .f32) (x2 : Vec F S1x100 .f32) : Vec F S24576x100 .f32 :=
  View.canon [⟨r0_o, k0_pay1 (View.ld x0 r0_x) (View.ld x1 r0_w) (View.ld x2 r0_b)⟩]

/-- The inputs are unchanged and the output is `out0_3` of them. -/
theorem sound_kernel0 (c : Dev nD) (E : Set ℕ) (i : grid0.Coords)
    (arg1 : Memref sig .tc .vmem S24576x16 .f32) (harg1 : arg1.IsWhole) (arg2 : Memref sig .tc .vmem S16x100 .f32) (harg2 : arg2.IsWhole)
    (arg3 : Memref sig .tc .vmem S1x100 .f32) (harg3 : arg3.IsWhole) (arg4 : Memref sig .tc .vmem S24576x100 .f32) (harg4 : arg4.IsWhole)
    (x0 : Vec F S24576x16 .f32) (x1 : Vec F S16x100 .f32) (x2 : Vec F S1x100 .f32) (K : PUnit → sProp 𝕄) :
    iprop(owns c arg1 fullShare x0 ∗ owns c arg2 fullShare x1 ∗ owns c arg3 fullShare x2
        ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) E (cc0__encode_e_kernel i arg1 harg1 arg2 harg2 arg3 harg3 arg4 harg4) K := by
  simp only [cc0__encode_e_kernel_eq_skeleton]; unfold cc0__encode_e_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S24576x100.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : ∀ w : Fin 4, w ≠ 3 → ∀ d, (dat0 V c).before w t d = (dat0 V c).fetched w t d
  | 0, _, d | 1, _, d | 2, _, d => (dat0 V c).before_in_eq_fetched _ rfl (fun _ => rfl) (fun _ _ _ => rfl) (fun _ => rfl) t d
  | 3, h, _ => absurd rfl h

theorem body_obligation0 (c : Dev nD) : BodyObligation (dat0 (F := F) V c) (defs₀ (F := F)) Variants.none () Set.univ := fun t => by
  rw [bigSep_W0, bigSep_W0]
  simp only [before0 V c t 0 (by decide), before0 V c t 1 (by decide), before0 V c t 2 (by decide)]
  rw [after0_3, show (dat0 V c).Φ t.succ = (dat0 V c).Φ t.castSucc from rfl,
    show (dat0 V c).owesAt () t.succ = (dat0 V c).owesAt () t.castSucc from rfl]
  sl_whnfR [defs₀, Defs.onTc]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Hand

end
-- ==== Proof.K.Kern.lean ====
import proofs.«113144_j23983097381472_1_alg».proof.Proof.Gen.Kernel.Launch
import proofs.«113144_j23983097381472_1_alg».proof.Proof.Gen.Kernel.Skeleton
import proofs.«113144_j23983097381472_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r1_e : Rect S6144x100 := Rect.unit (s := S6144x100) ![0, 0] S6144x100.size inb_S6144x100_S6144x100_0_0
abbrev r1_t : Rect S8x100 := Rect.unit (s := S8x100) ![0, 0] S8x100.size inb_S8x100_S8x100_0_0
abbrev r1_h : Rect S768x100 := Rect.unit (s := S768x100) ![0, 0] S768x100.size inb_S768x100_S768x100_0_0
abbrev r1_w : Rect S100x100 := Rect.unit (s := S100x100) ![0, 0] S100x100.size inb_S100x100_S100x100_0_0
abbrev r1_b : Rect S1x100 := Rect.unit (s := S1x100) ![0, 0] S1x100.size inb_S1x100_S1x100_0_0

def out1_13 (x0 : Vec F S6144x100 .f32) (x1 : Vec F S8x100 .f32) (x2 : Vec F S768x100 .f32) (x3 : Vec F S100x100 .f32)
    (x4 : Vec F S1x100 .f32) (x5 x6 x7 : Vec F S100x100 .f32) (x8 : Vec F S1x100 .f32) : Vec F S6144x100 .f32 :=
  View.canon [⟨r1_e, k1_pay1 (k1_pay3 (View.ld x0 r1_e))
    (k1_pay5 (View.ld x0 r1_e) (View.ld x3 r1_w) (View.ld x4 r1_b) (View.ld x1 r1_t) (View.ld x2 r1_h) (View.ld x5 r1_w) (View.ld x6 r1_w) (View.ld x7 r1_w))
    (View.ld x8 r1_b)⟩]

def out1_14 (x0 : Vec F S6144x100 .f32) (x1 : Vec F S8x100 .f32) (x2 : Vec F S768x100 .f32) (x3 : Vec F S100x100 .f32)
    (x4 : Vec F S1x100 .f32) (x5 x6 x7 : Vec F S100x100 .f32) (x8 : Vec F S1x100 .f32) (x9 : Vec F S100x100 .f32)
    (x10 : Vec F S1x100 .f32) (x11 : Vec F S100x100 .f32) (x12 : Vec F S1x100 .f32) : Vec F S8x100 .f32 :=
  View.canon [⟨r1_t, k1_pay2 (k1_pay3 (View.ld x0 r1_e)) (k1_pay4 (View.ld x1 r1_t))
    (k1_pay5 (View.ld x0 r1_e) (View.ld x3 r1_w) (View.ld x4 r1_b) (View.ld x1 r1_t) (View.ld x2 r1_h) (View.ld x5 r1_w) (View.ld x6 r1_w) (View.ld x7 r1_w))
    (View.ld x8 r1_b) (View.ld x9 r1_w) (View.ld x10 r1_b) (View.ld x11 r1_w) (View.ld x12 r1_b)⟩]

/-- The body reads the thirteen input buffers and leaves them; the one store into each output buffer covers it. -/
theorem sound_kernel1 (c : Dev nD) (E : Set ℕ) {i : grid1.Coords} {arg1 arg14 : Memref sig .tc .vmem S6144x100 .f32}
    {arg2 arg15 : Memref sig .tc .vmem S8x100 .f32} {arg3 : Memref sig .tc .vmem S768x100 .f32}
    {arg4 arg6 arg7 arg8 arg10 arg12 : Memref sig .tc .vmem S100x100 .f32} {arg5 arg9 arg11 arg13 : Memref sig .tc .vmem S1x100 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole} {harg10 : arg10.IsWhole}
    {harg11 : arg11.IsWhole} {harg12 : arg12.IsWhole} {harg13 : arg13.IsWhole} {harg14 : arg14.IsWhole} {harg15 : arg15.IsWhole}
    (x0 : Vec F S6144x100 .f32) (x1 : Vec F S8x100 .f32) (x2 : Vec F S768x100 .f32) (x3 : Vec F S100x100 .f32) (x4 : Vec F S1x100 .f32)
    (x5 x6 x7 : Vec F S100x100 .f32) (x8 : Vec F S1x100 .f32) (x9 : Vec F S100x100 .f32) (x10 : Vec F S1x100 .f32)
    (x11 : Vec F S100x100 .f32) (x12 : Vec F S1x100 .f32) {K : PUnit → sProp 𝕄} :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6 ∗ owns c.tc arg8 fullShare x7 ∗ owns c.tc arg9 fullShare x8
        ∗ owns c.tc arg10 fullShare x9 ∗ owns c.tc arg11 fullShare x10 ∗ owns c.tc arg12 fullShare x11
        ∗ owns c.tc arg13 fullShare x12
        ∗ (∃ d, owns c.tc arg14 fullShare d) ∗ (∃ d, owns c.tc arg15 fullShare d)
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare x6 ∗ owns c.tc arg8 fullShare x7 ∗ owns c.tc arg9 fullShare x8
            ∗ owns c.tc arg10 fullShare x9 ∗ owns c.tc arg11 fullShare x10 ∗ owns c.tc arg12 fullShare x11
            ∗ owns c.tc arg13 fullShare x12
            ∗ owns c.tc arg14 fullShare (out1_13 x0 x1 x2 x3 x4 x5 x6 x7 x8)
            ∗ owns c.tc arg15 fullShare (out1_14 x0 x1 x2 x3 x4 x5 x6 x7 x8 x9 x10 x11 x12)) -∗ K ⟨⟩))
      ⊢ wp frame (wpE (defs₀ (F := F)) Variants.none c none) E
          (cc1__update_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [cc1__update_kernel_eq_skeleton]; unfold cc1__update_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H8]; · iexists f8; iframe; ipureintro; rfl
  isplitl [H9]; · iexists f9; iframe; ipureintro; rfl
  isplitl [H10]; · iexists f10; iframe; ipureintro; rfl
  isplitl [H11]; · iexists f11; iframe; ipureintro; rfl
  isplitl [H12]; · iexists f12; iframe; ipureintro; rfl
  isplitl [H13]
  · iexists _; iframe; ipureintro; exact View.read_writes_eq_canon _ _ _ (View.cover_of_tiled _ S6144x100.size (by rfl))
  iexists _; iframe; ipureintro; exact View.read_writes_eq_canon _ _ _ (View.cover_of_tiled _ S8x100.size (by rfl))

/-- The three update regions run one and the same body. -/
theorem bodyEq1 : @cc1__update_kernel F _ = @cc1__update_kernel F _ := rfl
theorem bodyEq2 : @cc2__update_kernel F _ = @cc1__update_kernel F _ := rfl
theorem bodyEq3 : @cc3__update_kernel F _ = @cc1__update_kernel F _ := rfl

end Cert.Kernel.Hand

end
-- ==== Proof.K.Body1.lean ====
import proofs.«113144_j23983097381472_1_alg».proof.Proof.K.Kern

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: past the body an input window holds its own block of its array, an output window the value the body stores there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t)
        (iblk1 V c 6 t) (iblk1 V c 7 t) (iblk1 V c 8 t)
    | ⟨14, _⟩ => out1_14 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
  Φ _ := Pipeline.ΦA spec1 c
  q w := if w = 1 then fullShare.left else if w = 2 then fullShare.right else fullShare
  owed _ := 0

theorem A_eq1 (c : Dev nD) (w : Fin cfg1.W) : (dat1 V c).A w = V c (Pipeline.arrRef spec1 w) := rfl

theorem after1_13 (c : Dev nD) (t : Fin cfg1.N) :
    (dat1 V c).after 13 t = out1_13 (iblk1 V c 0 t) (iblk1 V c 1 t) (iblk1 V c 2 t) (iblk1 V c 3 t) (iblk1 V c 4 t) (iblk1 V c 5 t)
      (iblk1 V c 6 t) (iblk1 V c 7 t) (iblk1 V c 8 t) := by dsimp only [dat1]
theorem after1_14 (c : Dev nD) (t : Fin cfg1.N) :
    (dat1 V c).after 14 t = out1_14 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t) (iblk1 V c 12 t) := by
  dsimp only [dat1]

/-- The body leaves an input window's buffer as it finds it. -/
theorem before1 (c : Dev nD) (w : Fin cfg1.W) (hw : w.val < 13) (t : Fin cfg1.N) (d) :
    (dat1 V c).before w t d = (dat1 V c).after w t := by
  match w, hw with
  | 0, _ | 1, _ | 2, _ | 3, _ | 4, _ | 5, _ | 6, _ | 7, _ | 8, _ | 9, _ | 10, _ | 11, _ | 12, _ =>
    exact ((dat1 V c).before_in_eq_fetched _ rfl (fun _ => rfl) (fun _ _ _ => rfl) (fun _ => rfl) t d).trans rfl
  | ⟨_ + 13, _⟩, h => exact absurd h (Nat.not_lt.2 (Nat.le_add_left _ _))

theorem dat1_q1 (c : Dev nD) : (dat1 V c).q 1 = fullShare.left := by
  dsimp only [dat1]; exact if_pos rfl
theorem dat1_q2 (c : Dev nD) : (dat1 V c).q 2 = fullShare.right := by
  dsimp only [dat1]; exact (if_neg (by decide)).trans (if_pos rfl)
theorem dat1_q (c : Dev nD) (w : Fin cfg1.W) (h1 : w ≠ 1) (h2 : w ≠ 2) : (dat1 V c).q w = fullShare := by
  dsimp only [dat1]; rw [if_neg h1, if_neg h2]

theorem body_obligation1 (c : Dev nD) : BodyObligation (dat1 (F := F) V c) (defs₀ (F := F)) Variants.none () Set.univ := fun t => by
  show _ ⊢ wp _ _ _ (bodyAt1 t) _
  unfold bodyAt1
  rewrite [bodyEq1, bigSep_W1, bigSep_W1, show (dat1 V c).owesAt () t.succ = (dat1 V c).owesAt () t.castSucc from rfl]
  simp (disch := decide) only [before1 V c]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply sound_kernel1 c Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  iframe
  isplitl [H13]; · iexists _; iexact H13
  isplitl [H14]; · iexists _; iexact H14
  iintro ⟨H0, H1, H2, H3, H4, H5, H6, H7, H8, H9, H10, H11, H12, H13, H14⟩
  iframe

end Cert.Kernel.Hand

end
-- ==== Proof.K.Body2.lean ====
import proofs.«113144_j23983097381472_1_alg».proof.Proof.K.Kern

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: past the body an input window holds its own block of its array, an output window the value the body stores there. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out1_13 (iblk2 V c 0 t) (iblk2 V c 1 t) (iblk2 V c 2 t) (iblk2 V c 3 t) (iblk2 V c 4 t) (iblk2 V c 5 t)
        (iblk2 V c 6 t) (iblk2 V c 7 t) (iblk2 V c 8 t)
    | ⟨14, _⟩ => out1_14 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
  Φ _ := Pipeline.ΦA spec2 c
  q w := if w = 1 then fullShare.left else if w = 2 then fullShare.right else fullShare
  owed _ := 0

theorem A_eq2 (c : Dev nD) (w : Fin cfg2.W) : (dat2 V c).A w = V c (Pipeline.arrRef spec2 w) := rfl

theorem after2_13 (c : Dev nD) (t : Fin cfg2.N) :
    (dat2 V c).after 13 t = out1_13 (iblk2 V c 0 t) (iblk2 V c 1 t) (iblk2 V c 2 t) (iblk2 V c 3 t) (iblk2 V c 4 t) (iblk2 V c 5 t)
      (iblk2 V c 6 t) (iblk2 V c 7 t) (iblk2 V c 8 t) := by dsimp only [dat2]
theorem after2_14 (c : Dev nD) (t : Fin cfg2.N) :
    (dat2 V c).after 14 t = out1_14 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t) := by
  dsimp only [dat2]

/-- The body leaves an input window's buffer as it finds it. -/
theorem before2 (c : Dev nD) (w : Fin cfg2.W) (hw : w.val < 13) (t : Fin cfg2.N) (d) :
    (dat2 V c).before w t d = (dat2 V c).after w t := by
  match w, hw with
  | 0, _ | 1, _ | 2, _ | 3, _ | 4, _ | 5, _ | 6, _ | 7, _ | 8, _ | 9, _ | 10, _ | 11, _ | 12, _ =>
    exact ((dat2 V c).before_in_eq_fetched _ rfl (fun _ => rfl) (fun _ _ _ => rfl) (fun _ => rfl) t d).trans rfl
  | ⟨_ + 13, _⟩, h => exact absurd h (Nat.not_lt.2 (Nat.le_add_left _ _))

theorem dat2_q1 (c : Dev nD) : (dat2 V c).q 1 = fullShare.left := by
  dsimp only [dat2]; exact if_pos rfl
theorem dat2_q2 (c : Dev nD) : (dat2 V c).q 2 = fullShare.right := by
  dsimp only [dat2]; exact (if_neg (by decide)).trans (if_pos rfl)
theorem dat2_q (c : Dev nD) (w : Fin cfg2.W) (h1 : w ≠ 1) (h2 : w ≠ 2) : (dat2 V c).q w = fullShare := by
  dsimp only [dat2]; rw [if_neg h1, if_neg h2]

theorem body_obligation2 (c : Dev nD) : BodyObligation (dat2 (F := F) V c) (defs₀ (F := F)) Variants.none () Set.univ := fun t => by
  show _ ⊢ wp _ _ _ (bodyAt2 t) _
  unfold bodyAt2
  rewrite [bodyEq2, bigSep_W2, bigSep_W2, show (dat2 V c).owesAt () t.succ = (dat2 V c).owesAt () t.castSucc from rfl]
  simp (disch := decide) only [before2 V c]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply sound_kernel1 c Set.univ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
  iframe
  isplitl [H13]; · iexists _; iexact H13
  isplitl [H14]; · iexists _; iexact H14
  iintro ⟨H0, H1, H2, H3, H4, H5, H6, H7, H8, H9, H10, H11, H12, H13, H14⟩
  iframe

end Cert.Kernel.Hand

end
-- ==== Proof.K.Body3.lean ====
import proofs.«113144_j23983097381472_1_alg».proof.Proof.K.Kern

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: past the body an input window holds its own block of its array, an output window the value the body stores there. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => out1_13 (iblk3 V c 0 t) (iblk3 V c 1 t) (iblk3 V c 2 t) (iblk3 V c 3 t) (iblk3 V c 4 t) (iblk3 V c 5 t)
        (iblk3 V c 6 t) (iblk3 V c 7 t) (iblk3 V c 8 t)
    | ⟨14, _⟩ => out1_14 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t) (iblk3 V c 10 t) (iblk3 V c 11 t) (iblk3 V c 12 t)
  Φ _ := Pipeline.ΦA spec3 c
  q w := if w = 1 then fullShare.left else if w = 2 then fullShare.right else fullShare
  owed _ := 0

theorem A_eq3 (c : Dev nD) (w : Fin cfg3.W) : (dat3 V c).A w = V c (Pipeline.arrRef spec3 w) := rfl

theorem after3_13 (c : Dev nD) (t : Fin cfg3.N) :
    (dat3 V c).after 13 t = out1_13 (iblk3 V c 0 t) (iblk3 V c 1 t) (iblk3 V c 2 t) (iblk3 V c 3 t) (iblk3 V c 4 t) (iblk3 V c 5 t)
      (iblk3 V c 6 t) (iblk3 V c 7 t) (iblk3 V c 8 t) := by dsimp only [dat3]
theorem after3_14 (c : Dev nD) (t : Fin cfg3.N) :
    (dat3 V c).after 14 t = out1_14 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) (iblk3 V c 11 t) (iblk3 V c 12 t) := by
  dsimp only [dat3]

/-- The body leaves an input window's buffer as it finds it. -/
theorem before3 (c : Dev nD) (w : Fin cfg3.W) (hw : w.val < 13) (t : Fin cfg3.N) (d) :
    (dat3 V c).before w t d = (dat3 V c).after w t := by
  match w, hw with
  | 0, _ | 1, _ | 2, _ | 3, _ | 4, _ | 5, _ | 6, _ | 7, _ | 8, _ | 9, _ | 10, _ | 11, _ | 12, _ =>
    exact ((dat3 V c).before_in_eq_fetched _ rfl (fun _ => rfl) (fun _ _ _ => rfl) (fun _ => rfl) t d).trans rfl
  | ⟨_ + 13, _⟩, h => exact absurd h (Nat.not_lt.2 (Nat.le_add_left _ _))

theorem dat3_q1 (c : Dev nD) : (dat3 V c).q 1 = fullShare.left := by
  dsimp only [dat3]; exact if_pos rfl
theorem dat3_q2 (c : Dev nD) : (dat3 V c).q 2 = fullShare.right := by
  dsimp only [dat3]; exact (if_neg (by decide)).trans (if_pos rfl)
theorem dat3_q (c : Dev nD) (w : Fin cfg3.W) (h1 : w ≠ 1) (h2 : w ≠ 2) : (dat3 V c).q w = fullShare := by
  dsimp only [dat3]; rw [if_neg h1, if_neg h2]

theorem body_obligation3 (c : Dev nD) : BodyObligation (dat3 (F := F) V c) (defs₀ (F := F)) Variants.none () Set.univ := fun t => by
  show _ ⊢ wp _ _ _ (bodyAt3 t) _
  unfold bodyAt3
  rewrite [bodyEq3, bigSep_W3, bigSep_W3, show (dat3 V c).owesAt () t.succ = (dat3 V c).owesAt () t.castSucc from rfl]
  simp (disch := decide) only [before3 V c]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply sound_kernel1 c Set.univ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
  iframe
  isplitl [H13]; · iexists _; iexact H13
  isplitl [H14]; · iexists _; iexact H14
  iintro ⟨H0, H1, H2, H3, H4, H5, H6, H7, H8, H9, H10, H11, H12, H13, H14⟩
  iframe

end Cert.Kernel.Hand

end
-- ==== Proof.K.Stages.lean ====
import proofs.«113144_j23983097381472_1_alg».proof.Proof.K.Body0
import proofs.«113144_j23983097381472_1_alg».proof.Proof.K.Body1
import proofs.«113144_j23983097381472_1_alg».proof.Proof.K.Body2
import proofs.«113144_j23983097381472_1_alg».proof.Proof.K.Body3
import proofs.«113144_j23983097381472_1_alg».proof.Proof.Gen.Kernel.Regions

noncomputable section

namespace Cert.Kernel.Hand

open Cert.Kernel Cert.Kernel.Gen
open Idealize.ShloMosaic Idealize.ShloMosaic.TcCoe
open Idealize.ShloMosaic.Pipeline (Dat)

variable {F : FTy → Type} [FloatOps F]

/-- A later update at another point leaves an earlier one in place. -/
theorem update_fst {α : Type} [DecidableEq α] {β : α → Type} (f : ∀ a, β a) {x y : α} (h : x ≠ y) (a : β x) (b : β y) :
    Function.update (Function.update f x a) y b x = a := by
  rw [Function.update_of_ne h, Function.update_self]

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

/-- The contents at each boundary: a host stretch computes; a region overwrites its outputs with what its proof data end at. -/
abbrev C1 (c : Dev nD) : Valuation τ sig (Elt F) := Gen.V1 m c
def arr0 (c : Dev nD) : Buf (Elt F) ((c : Thread nD τ).loc main_v5) := (dat0 (atRefs (C1 m)) c).arrAt 3 cfg0.N
def C2 (c : Dev nD) : Valuation τ sig (Elt F) := Function.update (C1 m c) main_v5 (arr0 m c)
theorem C2_v5 (c : Dev nD) : C2 m c main_v5 = arr0 m c := by unfold C2; rw [Function.update_self]

abbrev C3 (c : Dev nD) : Valuation τ sig (Elt F) := StableHlo.after hostOps1 (C2 m c)
def arr1e (c : Dev nD) : Buf (Elt F) ((c : Thread nD τ).loc main_v10_0) := (dat1 (atRefs (C3 m)) c).arrAt 13 cfg1.N
def arr1h (c : Dev nD) : Buf (Elt F) ((c : Thread nD τ).loc main_v10_1) := (dat1 (atRefs (C3 m)) c).arrAt 14 cfg1.N
def C4 (c : Dev nD) : Valuation τ sig (Elt F) :=
  Function.update (Function.update (C3 m c) main_v10_0 (arr1e m c)) main_v10_1 (arr1h m c)
theorem C4_h (c : Dev nD) : C4 m c main_v10_1 = arr1h m c := by unfold C4; rw [Function.update_self]
theorem C4_e (c : Dev nD) : C4 m c main_v10_0 = arr1e m c := by unfold C4; exact update_fst _ (StableHlo.devRef_ne_of_ne (by decide)) _ _

abbrev C5 (c : Dev nD) : Valuation τ sig (Elt F) := StableHlo.after hostOps2 (C4 m c)
def arr2e (c : Dev nD) : Buf (Elt F) ((c : Thread nD τ).loc main_v15_0) := (dat2 (atRefs (C5 m)) c).arrAt 13 cfg2.N
def arr2h (c : Dev nD) : Buf (Elt F) ((c : Thread nD τ).loc main_v15_1) := (dat2 (atRefs (C5 m)) c).arrAt 14 cfg2.N
def C6 (c : Dev nD) : Valuation τ sig (Elt F) :=
  Function.update (Function.update (C5 m c) main_v15_0 (arr2e m c)) main_v15_1 (arr2h m c)
theorem C6_h (c : Dev nD) : C6 m c main_v15_1 = arr2h m c := by unfold C6; rw [Function.update_self]
theorem C6_e (c : Dev nD) : C6 m c main_v15_0 = arr2e m c := by unfold C6; exact update_fst _ (StableHlo.devRef_ne_of_ne (by decide)) _ _

abbrev C7 (c : Dev nD) : Valuation τ sig (Elt F) := StableHlo.after hostOps3 (C6 m c)
def arr3e (c : Dev nD) : Buf (Elt F) ((c : Thread nD τ).loc main_v20_0) := (dat3 (atRefs (C7 m)) c).arrAt 13 cfg3.N
def arr3h (c : Dev nD) : Buf (Elt F) ((c : Thread nD τ).loc main_v20_1) := (dat3 (atRefs (C7 m)) c).arrAt 14 cfg3.N
def C8 (c : Dev nD) : Valuation τ sig (Elt F) :=
  Function.update (Function.update (C7 m c) main_v20_0 (arr3e m c)) main_v20_1 (arr3h m c)
theorem C8_h (c : Dev nD) : C8 m c main_v20_1 = arr3h m c := by unfold C8; rw [Function.update_self]
theorem C8_e (c : Dev nD) : C8 m c main_v20_0 = arr3e m c := by unfold C8; exact update_fst _ (StableHlo.devRef_ne_of_ne (by decide)) _ _

/-- The generated boundary contents are written over these. -/
def outs : Gen.Outs (F := F) := fun J r c => match J with
  | 2 => C2 m c r
  | 4 => C4 m c r
  | 6 => C6 m c r
  | _ => C8 m c r

theorem V2_eq (c : Dev nD) : Gen.V2 m (outs m) c = C2 m c := by
  show Function.update (Gen.V1 m c) main_v5 (C2 m c main_v5) = C2 m c
  rw [C2_v5]; rfl

theorem V3_eq (c : Dev nD) : Gen.V3 m (outs m) c = C3 m c := congrArg (StableHlo.after hostOps1) (V2_eq m c)
theorem V4_eq (c : Dev nD) : Gen.V4 m (outs m) c = C4 m c := by
  show Function.update (Function.update (Gen.V3 m (outs m) c) main_v10_0 (C4 m c main_v10_0)) main_v10_1 (C4 m c main_v10_1) = C4 m c
  rw [V3_eq, C4_e, C4_h]; rfl

theorem V5_eq (c : Dev nD) : Gen.V5 m (outs m) c = C5 m c := congrArg (StableHlo.after hostOps2) (V4_eq m c)
theorem V6_eq (c : Dev nD) : Gen.V6 m (outs m) c = C6 m c := by
  show Function.update (Function.update (Gen.V5 m (outs m) c) main_v15_0 (C6 m c main_v15_0)) main_v15_1 (C6 m c main_v15_1) = C6 m c
  rw [V5_eq, C6_e, C6_h]; rfl

theorem V7_eq (c : Dev nD) : Gen.V7 m (outs m) c = C7 m c := congrArg (StableHlo.after hostOps3) (V6_eq m c)
theorem V8_eq (c : Dev nD) : Gen.V8 m (outs m) c = C8 m c := by
  show Function.update (Function.update (Gen.V7 m (outs m) c) main_v20_0 (C8 m c main_v20_0)) main_v20_1 (C8 m c main_v20_1) = C8 m c
  rw [V7_eq, C8_e, C8_h]; rfl

end Cert.Kernel.Hand

end
-- ==== Proof.ShareLib.lean ====
import Idealize.ShloMosaic.Lib.Pipeline.Launch

noncomputable section

namespace Cert

open Idealize.ShloMosaic Idealize.ShloMosaic.TcCoe Idealize.ShloMosaic.Pipeline
open Idealize.SL.RA Idealize.SL.BI Idealize.SL.BI.BIBase Idealize.SL.BI.Laws

variable {nD : Nat} {τ : Topo} {sig : RefSig} {Val : EltTy → Type} {Λ₀ : Idealize.SL.Sem.Labels}
  {Ix : Type} [DecidableEq Ix] {Name : Type} [DecidableEq Name] {U : Type} [URA U] {Lvl : Type}

local notation "𝕄" => MT nD τ sig Ix Val Name U Lvl

/-- A whole points-to at the full share is the two at its halves, held by the two windows `i ≠ j` on the one array. -/
theorem arrBufs_iff_arrays_halves {cfg : Cfg sig Λ₀} {c : Dev nD} (dat : Dat τ Val Ix Name U Lvl cfg c) {i j : Fin cfg.W}
    (hij : i ≠ j) (hi : (cfg.win i).isOut = false) (hj : (cfg.win j).isOut = false)
    (href : arrRef cfg.spec j = arrRef cfg.spec i)
    (hinj : ∀ a b, a ≠ j → b ≠ j → arrRef cfg.spec a = arrRef cfg.spec b → a = b)
    (harr : ∀ w, (cfg.spec w).arr.IsWhole)
    (hqi : dat.q i = fullShare.left) (hqj : dat.q j = fullShare.right) (hq : ∀ w, w ≠ i → w ≠ j → dat.q w = fullShare)
    (V : (b : Ref sig .tc) → Buf Val ((c : Thread nD τ).loc b))
    (Fa : (w : Fin cfg.W) → Buf Val ((cfg.win w).arr.view.loc (c : Thread nD τ))) (hF : ∀ w, Fa w = V (arrRef cfg.spec w)) :
    (arrBufs cfg.spec c V : sProp 𝕄) ⊣⊢ dat.arrays Fa := by
  classical
  let Φ (q : PosShare TreeShare) (b : Ref sig .tc) : sProp 𝕄 := ((c : Thread nD τ).loc b) ↦{q} V b
  have harrays : dat.arrays Fa = bigSep Finset.univ fun w => Φ (dat.share w) (arrRef cfg.spec w) :=
    bigSep_congr fun w _ => by rw [(harr w).set_eq_univ, hF w]
  have hsi : dat.share i = fullShare.left := by unfold Dat.share; rw [hi]; exact hqi
  have hsj : dat.share j = fullShare.right := by unfold Dat.share; rw [hj]; exact hqj
  have hs : ∀ w, w ≠ i → w ≠ j → dat.share w = fullShare := fun w h1 h2 => by unfold Dat.share; rw [hq w h1 h2]; exact ite_self _
  have hi' : i ∈ (Finset.univ : Finset (Fin cfg.W)).erase j := Finset.mem_erase.mpr ⟨hij, Finset.mem_univ i⟩
  have himg : (Finset.univ : Finset (Fin cfg.W)).image (arrRef cfg.spec) = (Finset.univ.erase j).image (arrRef cfg.spec) := by
    conv_lhs => rw [← Finset.insert_erase (Finset.mem_univ j), Finset.image_insert]
    exact Finset.insert_eq_of_mem (href ▸ Finset.mem_image_of_mem _ hi')
  unfold arrBufs
  rw [harrays, himg, bigSep_image_of_injOn (fun a ha b hb => hinj a b (Finset.mem_erase.mp ha).1 (Finset.mem_erase.mp hb).1),
    bigSep_erase hi', bigSep_univ_split j, bigSep_erase hi', hsi, hsj, href]
  exact (sep_congr ((pointsTo_share (PosShare.mem_left_op_right fullShare)).trans sep_comm)
    (.of_eq (bigSep_congr fun w hw => by rw [hs w (Finset.mem_erase.mp hw).1 (Finset.mem_erase.mp (Finset.mem_erase.mp hw).2).1]))).trans sep_assoc

end Cert

end
-- ==== Proof.K.Share1.lean ====
import proofs.«113144_j23983097381472_1_alg».proof.Proof.Gen.Kernel.Launch
import proofs.«113144_j23983097381472_1_alg».proof.Proof.ShareLib

noncomputable section

namespace Cert.Kernel.Hand

open Cert.Kernel.Gen Idealize.ShloMosaic Idealize.ShloMosaic.TcCoe
open Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

variable (c : Dev nD) (dat : Dat τ (Elt F) Unit ℕ (UR sig nD τ) ℕ cfg1 c)
  (hq1 : dat.q 1 = fullShare.left) (hq2 : dat.q 2 = fullShare.right) (hq : ∀ w : Fin cfg1.W, w ≠ 1 → w ≠ 2 → dat.q w = fullShare)
  (V : (b : Ref sig .tc) → Buf (Elt F) ((c : Thread nD τ).loc b))
  (Fa : (w : Fin cfg1.W) → Buf (Elt F) ((cfg1.win w).arr.view.loc (c : Thread nD τ)))
  (hF : ∀ w, Fa w = V (Pipeline.arrRef spec1 w))
include hq1 hq2 hq hF

/-- Windows 1 and 2 read one array; no two of the others share one. -/
theorem arrays_iff_arrBufs1 : (Pipeline.arrBufs spec1 c V : sProp 𝕄) ⊣⊢ dat.arrays Fa :=
  arrBufs_iff_arrays_halves dat (i := 1) (j := 2) (by decide) rfl rfl rfl (by decide) arr_whole1 hq1 hq2 hq V Fa hF

end Cert.Kernel.Hand

end
-- ==== Proof.K.Share2.lean ====
import proofs.«113144_j23983097381472_1_alg».proof.Proof.Gen.Kernel.Launch
import proofs.«113144_j23983097381472_1_alg».proof.Proof.ShareLib

noncomputable section

namespace Cert.Kernel.Hand

open Cert.Kernel.Gen Idealize.ShloMosaic Idealize.ShloMosaic.TcCoe
open Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

variable (c : Dev nD) (dat : Dat τ (Elt F) Unit ℕ (UR sig nD τ) ℕ cfg2 c)
  (hq1 : dat.q 1 = fullShare.left) (hq2 : dat.q 2 = fullShare.right) (hq : ∀ w : Fin cfg2.W, w ≠ 1 → w ≠ 2 → dat.q w = fullShare)
  (V : (b : Ref sig .tc) → Buf (Elt F) ((c : Thread nD τ).loc b))
  (Fa : (w : Fin cfg2.W) → Buf (Elt F) ((cfg2.win w).arr.view.loc (c : Thread nD τ)))
  (hF : ∀ w, Fa w = V (Pipeline.arrRef spec2 w))
include hq1 hq2 hq hF

/-- Windows 1 and 2 read one array; no two of the others share one. -/
theorem arrays_iff_arrBufs2 : (Pipeline.arrBufs spec2 c V : sProp 𝕄) ⊣⊢ dat.arrays Fa :=
  arrBufs_iff_arrays_halves dat (i := 1) (j := 2) (by decide) rfl rfl rfl (by decide) arr_whole2 hq1 hq2 hq V Fa hF

end Cert.Kernel.Hand

end
-- ==== Proof.K.Share3.lean ====
import proofs.«113144_j23983097381472_1_alg».proof.Proof.Gen.Kernel.Launch
import proofs.«113144_j23983097381472_1_alg».proof.Proof.ShareLib

noncomputable section

namespace Cert.Kernel.Hand

open Cert.Kernel.Gen Idealize.ShloMosaic Idealize.ShloMosaic.TcCoe
open Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

variable (c : Dev nD) (dat : Dat τ (Elt F) Unit ℕ (UR sig nD τ) ℕ cfg3 c)
  (hq1 : dat.q 1 = fullShare.left) (hq2 : dat.q 2 = fullShare.right) (hq : ∀ w : Fin cfg3.W, w ≠ 1 → w ≠ 2 → dat.q w = fullShare)
  (V : (b : Ref sig .tc) → Buf (Elt F) ((c : Thread nD τ).loc b))
  (Fa : (w : Fin cfg3.W) → Buf (Elt F) ((cfg3.win w).arr.view.loc (c : Thread nD τ)))
  (hF : ∀ w, Fa w = V (Pipeline.arrRef spec3 w))
include hq1 hq2 hq hF

/-- Windows 1 and 2 read one array; no two of the others share one. -/
theorem arrays_iff_arrBufs3 : (Pipeline.arrBufs spec3 c V : sProp 𝕄) ⊣⊢ dat.arrays Fa :=
  arrBufs_iff_arrays_halves dat (i := 1) (j := 2) (by decide) rfl rfl rfl (by decide) arr_whole3 hq1 hq2 hq V Fa hF

end Cert.Kernel.Hand

end
-- ==== Proof.K.Run.lean ====
import proofs.«113144_j23983097381472_1_alg».proof.Proof.K.Stages
import proofs.«113144_j23983097381472_1_alg».proof.Proof.K.Share1
import proofs.«113144_j23983097381472_1_alg».proof.Proof.K.Share2
import proofs.«113144_j23983097381472_1_alg».proof.Proof.K.Share3
import proofs.«113144_j23983097381472_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The unscoped buffers are the arrays' buffers and the rest, so what the former yield the whole yields beside the rest. -/
theorem split_of (p : Fin 4) (hu : ∀ w, (Pipeline.arrRef (cfgs p).spec w).isScoped = false) (c : Dev nD)
    (V : (b : Ref sig .tc) → Buf (Elt F) ((c : Thread nD τ).loc b)) {A : sProp 𝕄}
    (h : (Pipeline.arrBufs (cfgs p).spec c V : sProp 𝕄) ⊢ A) :
    (unscopedBufs c V : sProp 𝕄) ⊢ iprop(A ∗ Pipeline.unscopedRest (cfgs p).spec c V) := by
  rw [Pipeline.unscopedBufs_split₀ cfgs p hu c V]
  exact sep_mono h .rfl

/-- Conversely, at any valuation that agrees with the old one off the arrays. -/
theorem join_of (p : Fin 4) (hu : ∀ w, (Pipeline.arrRef (cfgs p).spec w).isScoped = false) (c : Dev nD)
    (V V' : (b : Ref sig .tc) → Buf (Elt F) ((c : Thread nD τ).loc b)) {A : sProp 𝕄}
    (h : A ⊢ (Pipeline.arrBufs (cfgs p).spec c V' : sProp 𝕄))
    (hrest : ∀ b, b ∉ Finset.univ.image (Pipeline.arrRef (cfgs p).spec) → V' b = V b) :
    iprop(A ∗ Pipeline.unscopedRest (cfgs p).spec c V) ⊢ (unscopedBufs c V' : sProp 𝕄) := by
  rw [Pipeline.unscopedBufs_split₀ cfgs p hu c V']
  refine sep_mono h (Entails.of_eq ?_)
  unfold Pipeline.unscopedRest
  exact bigSep_congr fun b hb => by rw [hrest b (Finset.mem_sdiff.mp hb).2]

/-- An input's array ends as it began, and `V'` agrees with `V` off the written list `L`; the outputs `we`, `wh` are given. -/
theorem exit_of {cfg : Cfg sig Λ₀} {c : Dev nD} (dat : Dat τ (Elt F) Unit ℕ (UR sig nD τ) ℕ cfg c) {L : List (Ref sig .tc)}
    (we wh : Fin cfg.W) {V V' : (b : Ref sig .tc) → Buf (Elt F) ((c : Thread nD τ).loc b)}
    (hio : ∀ w, w ≠ we → w ≠ wh → (cfg.win w).isOut = false ∧ Pipeline.arrRef cfg.spec w ∉ L)
    (hA : ∀ w, dat.A w = V (Pipeline.arrRef cfg.spec w)) (hof : ∀ r, r ∉ L → V' r = V r)
    (he : dat.arrAt we cfg.N = V' (Pipeline.arrRef cfg.spec we)) (hh : dat.arrAt wh cfg.N = V' (Pipeline.arrRef cfg.spec wh))
    (w : Fin cfg.W) : dat.arrAt w cfg.N = V' (Pipeline.arrRef cfg.spec w) := by
  by_cases h1 : w = we
  · rw [h1]; exact he
  by_cases h2 : w = wh
  · rw [h2]; exact hh
  exact (dat.arrAt_in w (hio w h1 h2).1 _).trans ((hA w).trans (hof _ (hio w h1 h2).2).symm)

variable (m : (ℓ : Loc nD τ sig) → Buf (Elt F) ℓ)

def pdats : (p : Fin 4) → (c : Dev nD) → Dat τ (Elt F) Unit ℕ (UR sig nD τ) ℕ (cfgs p) c
  | ⟨0, _⟩ => fun c => dat0 (atRefs (C1 m)) c
  | ⟨1, _⟩ => fun c => dat1 (atRefs (C3 m)) c
  | ⟨2, _⟩ => fun c => dat2 (atRefs (C5 m)) c
  | ⟨3, _⟩ => fun c => dat3 (atRefs (C7 m)) c

abbrev 𝒱₀ : Variants := Variants.none
abbrev Lv0 : GSem nD τ sig → Finset Unit := fun _ => ∅
abbrev lv0 : GSem nD τ sig → Unit → ℕ := fun _ _ => 0
abbrev Rst (c : Dev nD) : sProp 𝕄 := iprop((∃ r, prngReg c r) ∗ ∃ W, owes (c : Thread nD τ) (0 : CellTallies nD τ sig Unit) W)
/-- The thread state between two items, the buffers at `V`. -/
abbrev St (V : Dev nD → Valuation τ sig (Elt F)) (c : Dev nD) : sProp 𝕄 :=
  iprop(StableHlo.held (c : Thread nD τ) (Pipeline.ucRefs τ sig) (V c) ∗ Rst c)

/-- A region runs from `St V` to `St V'` once its arrays leave the buffers at `V` and rejoin them at `V'`. -/
def regOf (p : Fin 4) (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m p c) defs₀ 𝒱₀ () Set.univ)
    (hd : ∀ c, (∀ t, (pdats m p c).owed t = 0) ∧ (∀ t, (pdats m p c).Φ t = Pipeline.ΦA (cfgs p).spec c) ∧ (pdats m p c).recorded 0 = Set.univ)
    (V V' : Dev nD → Valuation τ sig (Elt F))
    (hsplit : ∀ c, (unscopedBufs c (atRefs V c) : sProp 𝕄)
      ⊢ iprop((pdats m p c).arrays ((pdats m p c).arrAt · 0) ∗ Pipeline.unscopedRest (cfgs p).spec c (atRefs V c)))
    (hjoin : ∀ c, iprop((pdats m p c).arrays ((pdats m p c).arrAt · (cfgs p).N) ∗ Pipeline.unscopedRest (cfgs p).spec c (atRefs V c))
      ⊢ (unscopedBufs c (atRefs V' c) : sProp 𝕄)) :
    Pipeline.RegionSeg (pcfgs (F := F)) Gen.adm (pdats m) () defs₀ 𝒱₀ Lv0 lv0 p where
  win := win
  block_pos := block_pos
  stage_whole := stage_whole
  K := PEmpty
  osem k := k.elim
  ho := Pipeline.OwnSemFacts.none _
  hbody := hbody
  hwaits := Pipeline.hwaits_of_owed_zero _ _ _ _ Lv0 lv0 p fun c => (hd c).1
  pre := St V
  post := St V'
  X c := iprop(∃ r, prngReg c r)
  Y c := iprop(∃ r, prngReg c r)
  Z c := Pipeline.unscopedRest (cfgs p).spec c (atRefs V c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(hd c).1, (hd c).2.2]
      icases HO with ⟨%W, HO⟩; iexists W; isplitr; · ipureintro; exact fun _ _ => Or.inl trivial
      iexact HO
    isplitl [Hp]; · iexact Hp
    iexact Hrest
  hin c := by
    rw [(hd c).2.1 0]; unfold Pipeline.ΦA
    iintro ⟨Hp, -, Hr⟩
    isplitl [Hr]; · iexact Hr
    iexact Hp
  hout c := by
    rw [Pipeline.ownSems0_none, (hd c).2.1 (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj
      isplitl [Ha]; · iexact Ha
      iexact Hrest
    isplitl [HY]; · iexact HY
    unfold Pipeline.Dat.owesAt Pipeline.owesWithin
    rw [(hd c).1]
    icases HO with ⟨%W, -, HO⟩; iexists W; iexact HO

def reg0 :=
  regOf m 0 launch0.win.to₀ launch0.block_pos launch0.stage_whole (fun c => (body_obligation0 _ c).loose) (fun _ => ⟨fun _ => rfl, fun _ => rfl, rfl⟩)
    (Gen.V1 m) (Gen.V2 m (outs m))
    (fun c => Pipeline.arrays_of_unscopedBufs (p := 0) (pcfgs (F := F)) Gen.adm (pdats m) launch0.win launch0.arr_whole c
      ((pdats m 0 c).share_full fun _ => rfl) _ fun _ => rfl)
    (fun c => Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl) _ _ _
      (exit_of (dat0 (atRefs (C1 m)) c) 3 3 (by decide)
        (A_eq0 _ c) (Gen.V2_of m (outs m) c)
        ((congrFun (V2_eq m c) _).trans (C2_v5 m c)).symm ((congrFun (V2_eq m c) _).trans (C2_v5 m c)).symm)
      fun b hb => Gen.V2_of m (outs m) c b fun hm => hb
        ((by decide : ∀ r ∈ [main_v5], r ∈ Finset.univ.image (Pipeline.arrRef spec0)) b hm))

def reg1 :=
  regOf m 1 winFacts₀1 block_pos1 stage_whole1 (fun c => (body_obligation1 _ c).loose) (fun _ => ⟨fun _ => rfl, fun _ => rfl, rfl⟩)
    (Gen.V3 m (outs m)) (Gen.V4 m (outs m))
    (fun c => split_of 1 winFacts₀1.arr_unscoped c _ (arrays_iff_arrBufs1 c _ (dat1_q1 _ c) (dat1_q2 _ c) (dat1_q _ c) _ _
      fun w => (A_eq1 _ c w).trans (congrFun (V3_eq m c) _).symm).1)
    (fun c => join_of 1 winFacts₀1.arr_unscoped c _ _
      (arrays_iff_arrBufs1 c _ (dat1_q1 _ c) (dat1_q2 _ c) (dat1_q _ c) _ _
        (exit_of (dat1 (atRefs (C3 m)) c) 13 14 (by decide)
          (fun w => (A_eq1 _ c w).trans (congrFun (V3_eq m c) _).symm) (Gen.V4_of m (outs m) c)
          ((congrFun (V4_eq m c) _).trans (C4_e m c)).symm ((congrFun (V4_eq m c) _).trans (C4_h m c)).symm)).2
      fun b hb => Gen.V4_of m (outs m) c b fun hm => hb
        ((by decide : ∀ r ∈ [main_v10_0, main_v10_1], r ∈ Finset.univ.image (Pipeline.arrRef spec1)) b hm))

def reg2 :=
  regOf m 2 winFacts₀2 block_pos2 stage_whole2 (fun c => (body_obligation2 _ c).loose) (fun _ => ⟨fun _ => rfl, fun _ => rfl, rfl⟩)
    (Gen.V5 m (outs m)) (Gen.V6 m (outs m))
    (fun c => split_of 2 winFacts₀2.arr_unscoped c _ (arrays_iff_arrBufs2 c _ (dat2_q1 _ c) (dat2_q2 _ c) (dat2_q _ c) _ _
      fun w => (A_eq2 _ c w).trans (congrFun (V5_eq m c) _).symm).1)
    (fun c => join_of 2 winFacts₀2.arr_unscoped c _ _
      (arrays_iff_arrBufs2 c _ (dat2_q1 _ c) (dat2_q2 _ c) (dat2_q _ c) _ _
        (exit_of (dat2 (atRefs (C5 m)) c) 13 14 (by decide)
          (fun w => (A_eq2 _ c w).trans (congrFun (V5_eq m c) _).symm) (Gen.V6_of m (outs m) c)
          ((congrFun (V6_eq m c) _).trans (C6_e m c)).symm ((congrFun (V6_eq m c) _).trans (C6_h m c)).symm)).2
      fun b hb => Gen.V6_of m (outs m) c b fun hm => hb
        ((by decide : ∀ r ∈ [main_v15_0, main_v15_1], r ∈ Finset.univ.image (Pipeline.arrRef spec2)) b hm))

def reg3 :=
  regOf m 3 winFacts₀3 block_pos3 stage_whole3 (fun c => (body_obligation3 _ c).loose) (fun _ => ⟨fun _ => rfl, fun _ => rfl, rfl⟩)
    (Gen.V7 m (outs m)) (Gen.V8 m (outs m))
    (fun c => split_of 3 winFacts₀3.arr_unscoped c _ (arrays_iff_arrBufs3 c _ (dat3_q1 _ c) (dat3_q2 _ c) (dat3_q _ c) _ _
      fun w => (A_eq3 _ c w).trans (congrFun (V7_eq m c) _).symm).1)
    (fun c => join_of 3 winFacts₀3.arr_unscoped c _ _
      (arrays_iff_arrBufs3 c _ (dat3_q1 _ c) (dat3_q2 _ c) (dat3_q _ c) _ _
        (exit_of (dat3 (atRefs (C7 m)) c) 13 14 (by decide)
          (fun w => (A_eq3 _ c w).trans (congrFun (V7_eq m c) _).symm) (Gen.V8_of m (outs m) c)
          ((congrFun (V8_eq m c) _).trans (C8_e m c)).symm ((congrFun (V8_eq m c) _).trans (C8_h m c)).symm)).2
      fun b hb => Gen.V8_of m (outs m) c b fun hm => hb
        ((by decide : ∀ r ∈ [main_v20_0, main_v20_1], r ∈ Finset.univ.image (Pipeline.arrRef spec3)) b hm))

abbrev segs : List (Pipeline.Seg (pcfgs (F := F)) Gen.adm (pdats m) () defs₀ 𝒱₀ Lv0 lv0) :=
  [ .host (Gen.seg0 m 𝒱₀ Lv0 lv0 fun _ => Rst), .region (reg0 m),
    .host (Gen.seg2 m (outs m) 𝒱₀ Lv0 lv0 fun _ => Rst), .region (reg1 m),
    .host (Gen.seg4 m (outs m) 𝒱₀ Lv0 lv0 fun _ => Rst), .region (reg2 m),
    .host (Gen.seg6 m (outs m) 𝒱₀ Lv0 lv0 fun _ => Rst), .region (reg3 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every fair execution terminates with each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) :=
  Pipeline.θ_run_regions_kit (pcfgs (F := F)) Gen.adm (pdats m) () cellOf_inj emb₁ defs₀ 𝒱₀ Lv0 lv0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (Gen.V0 m))
    (Tₙ := fun c => iprop(StableHlo.held (c : Thread nD τ) (Pipeline.ucRefs τ sig) (Gen.V8 m (outs m) c) ∗ ∃ r, prngReg c r))
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach Lv0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

theorem V8_nodes (c : Dev nD) : Gen.V8 m (outs m) c main_v20_1 = arr3h m c := (congrFun (V8_eq m c) _).trans (C8_h m c)
theorem V8_edges (c : Dev nD) : Gen.V8 m (outs m) c main_v20_0 = arr3e m c := (congrFun (V8_eq m c) _).trans (C8_e m c)

end Cert.Kernel.Hand

end
-- ==== Proof.KI.Body0.lean ====
import proofs.«113144_j23983097381472_1_alg».proof.Proof.Gen.KernelIdeal.Launch
import proofs.«113144_j23983097381472_1_alg».proof.Proof.Gen.KernelIdeal.Skeleton
import proofs.«113144_j23983097381472_1_alg».proof.Proof.Gen.KernelIdeal.Points
import Idealize.ShloMosaic.Lib.Pipeline.FrameBody
import Idealize.ShloMosaic.Lib.Tactic

noncomputable section

namespace Cert.KernelIdeal.Hand

open Cert.KernelIdeal.Gen Idealize.ShloMosaic Idealize.ShloMosaic.TcCoe Idealize.ShloMosaic.Tactic
open Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S24576x16 := Rect.unit (s := S24576x16) ![0, 0] S24576x16.size inb_S24576x16_S24576x16_0_0
abbrev r0_w : Rect S16x100 := Rect.unit (s := S16x100) ![0, 0] S16x100.size inb_S16x100_S16x100_0_0
abbrev r0_b : Rect S1x100 := Rect.unit (s := S1x100) ![0, 0] S1x100.size inb_S1x100_S1x100_0_0
abbrev r0_o : Rect S24576x100 := Rect.unit (s := S24576x100) ![0, 0] S24576x100.size inb_S24576x100_S24576x100_0_0

def out0_3 (x0 : Vec F S24576x16 .f32) (x1 : Vec F S16x100 .f32) (x2 : Vec F S1x100 .f32) : Vec F S24576x100 .f32 :=
  View.canon [⟨r0_o, k0_pay1 (View.ld x0 r0_x) (View.ld x1 r0_w) (View.ld x2 r0_b)⟩]

/-- The inputs are unchanged and the output is `out0_3` of them. -/
theorem sound_kernel0 (c : Dev nD) (E : Set ℕ) (i : grid0.Coords)
    (arg1 : Memref sig .tc .vmem S24576x16 .f32) (harg1 : arg1.IsWhole) (arg2 : Memref sig .tc .vmem S16x100 .f32) (harg2 : arg2.IsWhole)
    (arg3 : Memref sig .tc .vmem S1x100 .f32) (harg3 : arg3.IsWhole) (arg4 : Memref sig .tc .vmem S24576x100 .f32) (harg4 : arg4.IsWhole)
    (x0 : Vec F S24576x16 .f32) (x1 : Vec F S16x100 .f32) (x2 : Vec F S1x100 .f32) (K : PUnit → sProp 𝕄) :
    iprop(owns c arg1 fullShare x0 ∗ owns c arg2 fullShare x1 ∗ owns c arg3 fullShare x2
        ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) E (cc0__encode_e_kernel i arg1 harg1 arg2 harg2 arg3 harg3 arg4 harg4) K := by
  simp only [cc0__encode_e_kernel_eq_skeleton]; unfold cc0__encode_e_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr
  swap; · iexact H3
  ipureintro
  exact View.read_writes_eq_canon _ _ _ (View.cover_of_tiled _ S24576x100.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

theorem before0 (c : Dev nD) (t : Fin cfg0.N) : ∀ w : Fin 4, w ≠ 3 → ∀ d, (dat0 V c).before w t d = (dat0 V c).fetched w t d
  | 0, _, d | 1, _, d | 2, _, d => (dat0 V c).before_in_eq_fetched _ rfl (fun _ => rfl) (fun _ _ _ => rfl) (fun _ => rfl) t d
  | 3, h, _ => absurd rfl h

theorem body_obligation0 (c : Dev nD) : BodyObligation (dat0 (F := F) V c) (defs₀ (F := F)) Variants.none () Set.univ := fun t => by
  rw [bigSep_W0, bigSep_W0]
  simp only [before0 V c t 0 (by decide), before0 V c t 1 (by decide), before0 V c t 2 (by decide)]
  rw [after0_3, show (dat0 V c).Φ t.succ = (dat0 V c).Φ t.castSucc from rfl,
    show (dat0 V c).owesAt () t.succ = (dat0 V c).owesAt () t.castSucc from rfl]
  sl_whnfR [defs₀, Defs.onTc]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KI.Kern.lean ====
import proofs.«113144_j23983097381472_1_alg».proof.Proof.Gen.KernelIdeal.Launch
import proofs.«113144_j23983097381472_1_alg».proof.Proof.Gen.KernelIdeal.Skeleton
import proofs.«113144_j23983097381472_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r1_e : Rect S6144x100 := Rect.unit (s := S6144x100) ![0, 0] S6144x100.size inb_S6144x100_S6144x100_0_0
abbrev r1_t : Rect S8x100 := Rect.unit (s := S8x100) ![0, 0] S8x100.size inb_S8x100_S8x100_0_0
abbrev r1_h : Rect S768x100 := Rect.unit (s := S768x100) ![0, 0] S768x100.size inb_S768x100_S768x100_0_0
abbrev r1_w : Rect S100x100 := Rect.unit (s := S100x100) ![0, 0] S100x100.size inb_S100x100_S100x100_0_0
abbrev r1_b : Rect S1x100 := Rect.unit (s := S1x100) ![0, 0] S1x100.size inb_S1x100_S1x100_0_0

def out1_13 (x0 : Vec F S6144x100 .f32) (x1 : Vec F S8x100 .f32) (x2 : Vec F S768x100 .f32) (x3 : Vec F S100x100 .f32)
    (x4 : Vec F S1x100 .f32) (x5 x6 x7 : Vec F S100x100 .f32) (x8 : Vec F S1x100 .f32) : Vec F S6144x100 .f32 :=
  View.canon [⟨r1_e, k1_pay1 (k1_pay3 (View.ld x0 r1_e))
    (k1_pay5 (View.ld x0 r1_e) (View.ld x3 r1_w) (View.ld x4 r1_b) (View.ld x1 r1_t) (View.ld x2 r1_h) (View.ld x5 r1_w) (View.ld x6 r1_w) (View.ld x7 r1_w))
    (View.ld x8 r1_b)⟩]

def out1_14 (x0 : Vec F S6144x100 .f32) (x1 : Vec F S8x100 .f32) (x2 : Vec F S768x100 .f32) (x3 : Vec F S100x100 .f32)
    (x4 : Vec F S1x100 .f32) (x5 x6 x7 : Vec F S100x100 .f32) (x8 : Vec F S1x100 .f32) (x9 : Vec F S100x100 .f32)
    (x10 : Vec F S1x100 .f32) (x11 : Vec F S100x100 .f32) (x12 : Vec F S1x100 .f32) : Vec F S8x100 .f32 :=
  View.canon [⟨r1_t, k1_pay2 (k1_pay3 (View.ld x0 r1_e)) (k1_pay4 (View.ld x1 r1_t))
    (k1_pay5 (View.ld x0 r1_e) (View.ld x3 r1_w) (View.ld x4 r1_b) (View.ld x1 r1_t) (View.ld x2 r1_h) (View.ld x5 r1_w) (View.ld x6 r1_w) (View.ld x7 r1_w))
    (View.ld x8 r1_b) (View.ld x9 r1_w) (View.ld x10 r1_b) (View.ld x11 r1_w) (View.ld x12 r1_b)⟩]

/-- The body reads the thirteen input buffers and leaves them; the one store into each output buffer covers it. -/
theorem sound_kernel1 (c : Dev nD) (E : Set ℕ) {i : grid1.Coords} {arg1 arg14 : Memref sig .tc .vmem S6144x100 .f32}
    {arg2 arg15 : Memref sig .tc .vmem S8x100 .f32} {arg3 : Memref sig .tc .vmem S768x100 .f32}
    {arg4 arg6 arg7 arg8 arg10 arg12 : Memref sig .tc .vmem S100x100 .f32} {arg5 arg9 arg11 arg13 : Memref sig .tc .vmem S1x100 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole} {harg10 : arg10.IsWhole}
    {harg11 : arg11.IsWhole} {harg12 : arg12.IsWhole} {harg13 : arg13.IsWhole} {harg14 : arg14.IsWhole} {harg15 : arg15.IsWhole}
    (x0 : Vec F S6144x100 .f32) (x1 : Vec F S8x100 .f32) (x2 : Vec F S768x100 .f32) (x3 : Vec F S100x100 .f32) (x4 : Vec F S1x100 .f32)
    (x5 x6 x7 : Vec F S100x100 .f32) (x8 : Vec F S1x100 .f32) (x9 : Vec F S100x100 .f32) (x10 : Vec F S1x100 .f32)
    (x11 : Vec F S100x100 .f32) (x12 : Vec F S1x100 .f32) {K : PUnit → sProp 𝕄} :
    iprop(owns c.tc arg1 fullShare x0 ∗ owns c.tc arg2 fullShare x1 ∗ owns c.tc arg3 fullShare x2
        ∗ owns c.tc arg4 fullShare x3 ∗ owns c.tc arg5 fullShare x4 ∗ owns c.tc arg6 fullShare x5
        ∗ owns c.tc arg7 fullShare x6 ∗ owns c.tc arg8 fullShare x7 ∗ owns c.tc arg9 fullShare x8
        ∗ owns c.tc arg10 fullShare x9 ∗ owns c.tc arg11 fullShare x10 ∗ owns c.tc arg12 fullShare x11
        ∗ owns c.tc arg13 fullShare x12
        ∗ (∃ d, owns c.tc arg14 fullShare d) ∗ (∃ d, owns c.tc arg15 fullShare d)
        ∗ (iprop(owns c.tc arg1 fullShare x0 ∗ owns c.tc arg2 fullShare x1 ∗ owns c.tc arg3 fullShare x2
            ∗ owns c.tc arg4 fullShare x3 ∗ owns c.tc arg5 fullShare x4 ∗ owns c.tc arg6 fullShare x5
            ∗ owns c.tc arg7 fullShare x6 ∗ owns c.tc arg8 fullShare x7 ∗ owns c.tc arg9 fullShare x8
            ∗ owns c.tc arg10 fullShare x9 ∗ owns c.tc arg11 fullShare x10 ∗ owns c.tc arg12 fullShare x11
            ∗ owns c.tc arg13 fullShare x12
            ∗ owns c.tc arg14 fullShare (out1_13 x0 x1 x2 x3 x4 x5 x6 x7 x8)
            ∗ owns c.tc arg15 fullShare (out1_14 x0 x1 x2 x3 x4 x5 x6 x7 x8 x9 x10 x11 x12)) -∗ K ⟨⟩))
      ⊢ wp frame (wpE (defs₀ (F := F)) Variants.none c none) E
          (cc1__update_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [cc1__update_kernel_eq_skeleton]; unfold cc1__update_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0; subst hf1; subst hf2; subst hf3; subst hf4; subst hf5; subst hf6; subst hf7; subst hf8; subst hf9; subst hf10; subst hf11; subst hf12
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  isplitl [H6]; · iexists f6; iframe; ipureintro; rfl
  isplitl [H7]; · iexists f7; iframe; ipureintro; rfl
  isplitl [H8]; · iexists f8; iframe; ipureintro; rfl
  isplitl [H9]; · iexists f9; iframe; ipureintro; rfl
  isplitl [H10]; · iexists f10; iframe; ipureintro; rfl
  isplitl [H11]; · iexists f11; iframe; ipureintro; rfl
  isplitl [H12]; · iexists f12; iframe; ipureintro; rfl
  isplitl [H13]
  · iexists _; iframe; ipureintro; exact View.read_writes_eq_canon _ _ _ (View.cover_of_tiled _ S6144x100.size (by rfl))
  iexists _; iframe; ipureintro; exact View.read_writes_eq_canon _ _ _ (View.cover_of_tiled _ S8x100.size (by rfl))

/-- The three update regions run one and the same body. -/
theorem bodyEq1 : @cc1__update_kernel F _ = @cc1__update_kernel F _ := rfl
theorem bodyEq2 : @cc2__update_kernel F _ = @cc1__update_kernel F _ := rfl
theorem bodyEq3 : @cc3__update_kernel F _ = @cc1__update_kernel F _ := rfl

end Cert.KernelIdeal.Hand

end
-- ==== Proof.KI.Body1.lean ====
import proofs.«113144_j23983097381472_1_alg».proof.Proof.KI.Kern

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: past the body an input window holds its own block of its array, an output window the value the body stores there. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t)
        (iblk1 V c 6 t) (iblk1 V c 7 t) (iblk1 V c 8 t)
    | ⟨14, _⟩ => out1_14 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (iblk1 V c 10 t) (iblk1 V c 11 t) (iblk1 V c 12 t)
  Φ _ := Pipeline.ΦA spec1 c
  q w := if w = 1 then fullShare.left else if w = 2 then fullShare.right else fullShare
  owed _ := 0

theorem A_eq1 (c : Dev nD) (w : Fin cfg1.W) : (dat1 V c).A w = V c (Pipeline.arrRef spec1 w) := rfl

theorem after1_13 (c : Dev nD) (t : Fin cfg1.N) :
    (dat1 V c).after 13 t = out1_13 (iblk1 V c 0 t) (iblk1 V c 1 t) (iblk1 V c 2 t) (iblk1 V c 3 t) (iblk1 V c 4 t) (iblk1 V c 5 t)
      (iblk1 V c 6 t) (iblk1 V c 7 t) (iblk1 V c 8 t) := by dsimp only [dat1]
theorem after1_14 (c : Dev nD) (t : Fin cfg1.N) :
    (dat1 V c).after 14 t = out1_14 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t) (iblk1 V c 12 t) := by
  dsimp only [dat1]

/-- The body leaves an input window's buffer as it finds it. -/
theorem before1 (c : Dev nD) (w : Fin cfg1.W) (hw : w.val < 13) (t : Fin cfg1.N) (d) :
    (dat1 V c).before w t d = (dat1 V c).after w t := by
  match w, hw with
  | 0, _ | 1, _ | 2, _ | 3, _ | 4, _ | 5, _ | 6, _ | 7, _ | 8, _ | 9, _ | 10, _ | 11, _ | 12, _ =>
    exact ((dat1 V c).before_in_eq_fetched _ rfl (fun _ => rfl) (fun _ _ _ => rfl) (fun _ => rfl) t d).trans rfl
  | ⟨_ + 13, _⟩, h => exact absurd h (Nat.not_lt.2 (Nat.le_add_left _ _))

theorem dat1_q1 (c : Dev nD) : (dat1 V c).q 1 = fullShare.left := by
  dsimp only [dat1]; exact if_pos rfl
theorem dat1_q2 (c : Dev nD) : (dat1 V c).q 2 = fullShare.right := by
  dsimp only [dat1]; exact (if_neg (by decide)).trans (if_pos rfl)
theorem dat1_q (c : Dev nD) (w : Fin cfg1.W) (h1 : w ≠ 1) (h2 : w ≠ 2) : (dat1 V c).q w = fullShare := by
  dsimp only [dat1]; rw [if_neg h1, if_neg h2]

theorem body_obligation1 (c : Dev nD) : BodyObligation (dat1 (F := F) V c) (defs₀ (F := F)) Variants.none () Set.univ := fun t => by
  show _ ⊢ wp _ _ _ (bodyAt1 t) _
  unfold bodyAt1
  rewrite [bodyEq1, bigSep_W1, bigSep_W1, show (dat1 V c).owesAt () t.succ = (dat1 V c).owesAt () t.castSucc from rfl]
  simp (disch := decide) only [before1 V c]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply sound_kernel1 c Set.univ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  iframe
  isplitl [H13]; · iexists _; iexact H13
  isplitl [H14]; · iexists _; iexact H14
  iintro ⟨H0, H1, H2, H3, H4, H5, H6, H7, H8, H9, H10, H11, H12, H13, H14⟩
  iframe

end Cert.KernelIdeal.Hand

end
-- ==== Proof.KI.Body2.lean ====
import proofs.«113144_j23983097381472_1_alg».proof.Proof.KI.Kern

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The proof data: past the body an input window holds its own block of its array, an output window the value the body stores there. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out1_13 (iblk2 V c 0 t) (iblk2 V c 1 t) (iblk2 V c 2 t) (iblk2 V c 3 t) (iblk2 V c 4 t) (iblk2 V c 5 t)
        (iblk2 V c 6 t) (iblk2 V c 7 t) (iblk2 V c 8 t)
    | ⟨14, _⟩ => out1_14 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
  Φ _ := Pipeline.ΦA spec2 c
  q w := if w = 1 then fullShare.left else if w = 2 then fullShare.right else fullShare
  owed _ := 0

theorem A_eq2 (c : Dev nD) (w : Fin cfg2.W) : (dat2 V c).A w = V c (Pipeline.arrRef spec2 w) := rfl

theorem after2_13 (c : Dev nD) (t : Fin cfg2.N) :
    (dat2 V c).after 13 t = out1_13 (iblk2 V c 0 t) (iblk2 V c 1 t) (iblk2 V c 2 t) (iblk2 V c 3 t) (iblk2 V c 4 t) (iblk2 V c 5 t)
      (iblk2 V c 6 t) (iblk2 V c 7 t) (iblk2 V c 8 t) := by dsimp only [dat2]
theorem after2_14 (c : Dev nD) (t : Fin cfg2.N) :
    (dat2 V c).after 14 t = out1_14 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t) := by
  dsimp only [dat2]

/-- The body leaves an input window's buffer as it finds it. -/
theorem before2 (c : Dev nD) (w : Fin cfg2.W) (hw : w.val < 13) (t : Fin cfg2.N) (d) :
    (dat2 V c).before w t d = (dat2 V c).after w t := by
  match w, hw with
  | 0, _ | 1, _ | 2, _ | 3, _ | 4, _ | 5, _ | 6, _ | 7, _ | 8, _ | 9, _ | 10, _ | 11, _ | 12, _ =>
    exact ((dat2 V c).before_in_eq_fetched _ rfl (fun _ => rfl) (fun _ _ _ => rfl) (fun _ => rfl) t d).trans rfl
  | ⟨_ + 13, _⟩, h => exact absurd h (Nat.not_lt.2 (Nat.le_add_left _ _))

theorem dat2_q1 (c : Dev nD) : (dat2 V c).q 1 = fullShare.left := by
  dsimp only [dat2]; exact if_pos rfl
theorem dat2_q2 (c : Dev nD) : (dat2 V c).q 2 = fullShare.right := by
  dsimp only [dat2]; exact (if_neg (by decide)).trans (if_pos rfl)
theorem dat2_q (c : Dev nD) (w : Fin cfg2.W) (h1 : w ≠ 1) (h2 : w ≠ 2) : (dat2 V c).q w = fullShare := by
  dsimp only [dat2]; rw [if_neg h1, if_neg h2]

theorem body_obligation2 (c : Dev nD) : BodyObligation (dat2 (F := F) V c) (defs₀ (F := F)) Variants.none () Set.univ := fun t => by
  show _ ⊢ wp _ _ _ (bodyAt2 t) _
  unfold bodyAt2
  rewrite [bodyEq2, bigSep_W2, bigSep_W2, show (dat2 V c).owesAt () t.succ = (dat2 V c).owesAt () t.castSucc from rfl]
  simp (disch := decide) only [before2 V c]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply sound_kernel1 c Set.univ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
  iframe
  isplitl [H13]; · iexists _; iexact H13
  isplitl [H14]; · iexists _; iexact H14
  iintro ⟨H0, H1, H2, H3, H4, H5, H6, H7, H8, H9, H10, H11, H12, H13, H14⟩
  iframe

end Cert.KernelIdeal.Hand

end
-- ==== Proof.KI.Body3.lean ====
import proofs.«113144_j23983097381472_1_alg».proof.Proof.KI.Kern

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: past the body an input window holds its own block of its array, an output window the value the body stores there. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => out1_13 (iblk3 V c 0 t) (iblk3 V c 1 t) (iblk3 V c 2 t) (iblk3 V c 3 t) (iblk3 V c 4 t) (iblk3 V c 5 t)
        (iblk3 V c 6 t) (iblk3 V c 7 t) (iblk3 V c 8 t)
    | ⟨14, _⟩ => out1_14 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t) (iblk3 V c 10 t) (iblk3 V c 11 t) (iblk3 V c 12 t)
  Φ _ := Pipeline.ΦA spec3 c
  q w := if w = 1 then fullShare.left else if w = 2 then fullShare.right else fullShare
  owed _ := 0

theorem A_eq3 (c : Dev nD) (w : Fin cfg3.W) : (dat3 V c).A w = V c (Pipeline.arrRef spec3 w) := rfl

theorem after3_13 (c : Dev nD) (t : Fin cfg3.N) :
    (dat3 V c).after 13 t = out1_13 (iblk3 V c 0 t) (iblk3 V c 1 t) (iblk3 V c 2 t) (iblk3 V c 3 t) (iblk3 V c 4 t) (iblk3 V c 5 t)
      (iblk3 V c 6 t) (iblk3 V c 7 t) (iblk3 V c 8 t) := by dsimp only [dat3]
theorem after3_14 (c : Dev nD) (t : Fin cfg3.N) :
    (dat3 V c).after 14 t = out1_14 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) (iblk3 V c 11 t) (iblk3 V c 12 t) := by
  dsimp only [dat3]

/-- The body leaves an input window's buffer as it finds it. -/
theorem before3 (c : Dev nD) (w : Fin cfg3.W) (hw : w.val < 13) (t : Fin cfg3.N) (d) :
    (dat3 V c).before w t d = (dat3 V c).after w t := by
  match w, hw with
  | 0, _ | 1, _ | 2, _ | 3, _ | 4, _ | 5, _ | 6, _ | 7, _ | 8, _ | 9, _ | 10, _ | 11, _ | 12, _ =>
    exact ((dat3 V c).before_in_eq_fetched _ rfl (fun _ => rfl) (fun _ _ _ => rfl) (fun _ => rfl) t d).trans rfl
  | ⟨_ + 13, _⟩, h => exact absurd h (Nat.not_lt.2 (Nat.le_add_left _ _))

theorem dat3_q1 (c : Dev nD) : (dat3 V c).q 1 = fullShare.left := by
  dsimp only [dat3]; exact if_pos rfl
theorem dat3_q2 (c : Dev nD) : (dat3 V c).q 2 = fullShare.right := by
  dsimp only [dat3]; exact (if_neg (by decide)).trans (if_pos rfl)
theorem dat3_q (c : Dev nD) (w : Fin cfg3.W) (h1 : w ≠ 1) (h2 : w ≠ 2) : (dat3 V c).q w = fullShare := by
  dsimp only [dat3]; rw [if_neg h1, if_neg h2]

theorem body_obligation3 (c : Dev nD) : BodyObligation (dat3 (F := F) V c) (defs₀ (F := F)) Variants.none () Set.univ := fun t => by
  show _ ⊢ wp _ _ _ (bodyAt3 t) _
  unfold bodyAt3
  rewrite [bodyEq3, bigSep_W3, bigSep_W3, show (dat3 V c).owesAt () t.succ = (dat3 V c).owesAt () t.castSucc from rfl]
  simp (disch := decide) only [before3 V c]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply sound_kernel1 c Set.univ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t)
  iframe
  isplitl [H13]; · iexists _; iexact H13
  isplitl [H14]; · iexists _; iexact H14
  iintro ⟨H0, H1, H2, H3, H4, H5, H6, H7, H8, H9, H10, H11, H12, H13, H14⟩
  iframe

end Cert.KernelIdeal.Hand

end
-- ==== Proof.KI.Stages.lean ====
import proofs.«113144_j23983097381472_1_alg».proof.Proof.KI.Body0
import proofs.«113144_j23983097381472_1_alg».proof.Proof.KI.Body1
import proofs.«113144_j23983097381472_1_alg».proof.Proof.KI.Body2
import proofs.«113144_j23983097381472_1_alg».proof.Proof.KI.Body3
import proofs.«113144_j23983097381472_1_alg».proof.Proof.Gen.KernelIdeal.Regions

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

/-- A later update at another point leaves an earlier one in place. -/
theorem update_fst {α : Type} [DecidableEq α] {β : α → Type} (f : ∀ a, β a) {x y : α} (h : x ≠ y) (a : β x) (b : β y) :
    Function.update (Function.update f x a) y b x = a := by
  rw [Function.update_of_ne h, Function.update_self]

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

/-- The contents at each boundary: a host stretch computes; a region overwrites its outputs with what its proof data end at. -/
abbrev C1 (c : Dev nD) : Valuation τ sig (Elt F) := Gen.V1 m c
def arr0 (c : Dev nD) : Buf (Elt F) ((c : Thread nD τ).loc main_v5) := (dat0 (atRefs (C1 m)) c).arrAt 3 cfg0.N
def C2 (c : Dev nD) : Valuation τ sig (Elt F) := Function.update (C1 m c) main_v5 (arr0 m c)
theorem C2_v5 (c : Dev nD) : C2 m c main_v5 = arr0 m c := by unfold C2; rw [Function.update_self]

abbrev C3 (c : Dev nD) : Valuation τ sig (Elt F) := StableHlo.after hostOps1 (C2 m c)
def arr1e (c : Dev nD) : Buf (Elt F) ((c : Thread nD τ).loc main_v10_0) := (dat1 (atRefs (C3 m)) c).arrAt 13 cfg1.N
def arr1h (c : Dev nD) : Buf (Elt F) ((c : Thread nD τ).loc main_v10_1) := (dat1 (atRefs (C3 m)) c).arrAt 14 cfg1.N
def C4 (c : Dev nD) : Valuation τ sig (Elt F) :=
  Function.update (Function.update (C3 m c) main_v10_0 (arr1e m c)) main_v10_1 (arr1h m c)
theorem C4_h (c : Dev nD) : C4 m c main_v10_1 = arr1h m c := by unfold C4; rw [Function.update_self]
theorem C4_e (c : Dev nD) : C4 m c main_v10_0 = arr1e m c := by unfold C4; exact update_fst _ (StableHlo.devRef_ne_of_ne (by decide)) _ _

abbrev C5 (c : Dev nD) : Valuation τ sig (Elt F) := StableHlo.after hostOps2 (C4 m c)
def arr2e (c : Dev nD) : Buf (Elt F) ((c : Thread nD τ).loc main_v15_0) := (dat2 (atRefs (C5 m)) c).arrAt 13 cfg2.N
def arr2h (c : Dev nD) : Buf (Elt F) ((c : Thread nD τ).loc main_v15_1) := (dat2 (atRefs (C5 m)) c).arrAt 14 cfg2.N
def C6 (c : Dev nD) : Valuation τ sig (Elt F) :=
  Function.update (Function.update (C5 m c) main_v15_0 (arr2e m c)) main_v15_1 (arr2h m c)
theorem C6_h (c : Dev nD) : C6 m c main_v15_1 = arr2h m c := by unfold C6; rw [Function.update_self]
theorem C6_e (c : Dev nD) : C6 m c main_v15_0 = arr2e m c := by unfold C6; exact update_fst _ (StableHlo.devRef_ne_of_ne (by decide)) _ _

abbrev C7 (c : Dev nD) : Valuation τ sig (Elt F) := StableHlo.after hostOps3 (C6 m c)
def arr3e (c : Dev nD) : Buf (Elt F) ((c : Thread nD τ).loc main_v20_0) := (dat3 (atRefs (C7 m)) c).arrAt 13 cfg3.N
def arr3h (c : Dev nD) : Buf (Elt F) ((c : Thread nD τ).loc main_v20_1) := (dat3 (atRefs (C7 m)) c).arrAt 14 cfg3.N
def C8 (c : Dev nD) : Valuation τ sig (Elt F) :=
  Function.update (Function.update (C7 m c) main_v20_0 (arr3e m c)) main_v20_1 (arr3h m c)
theorem C8_h (c : Dev nD) : C8 m c main_v20_1 = arr3h m c := by unfold C8; rw [Function.update_self]
theorem C8_e (c : Dev nD) : C8 m c main_v20_0 = arr3e m c := by unfold C8; exact update_fst _ (StableHlo.devRef_ne_of_ne (by decide)) _ _

/-- The generated boundary contents are written over these. -/
def outs : Gen.Outs (F := F) := fun J r c => match J with
  | 2 => C2 m c r
  | 4 => C4 m c r
  | 6 => C6 m c r
  | _ => C8 m c r

theorem V2_eq (c : Dev nD) : Gen.V2 m (outs m) c = C2 m c := by
  show Function.update (Gen.V1 m c) main_v5 (C2 m c main_v5) = C2 m c
  rw [C2_v5]; rfl

theorem V3_eq (c : Dev nD) : Gen.V3 m (outs m) c = C3 m c := congrArg (StableHlo.after hostOps1) (V2_eq m c)
theorem V4_eq (c : Dev nD) : Gen.V4 m (outs m) c = C4 m c := by
  show Function.update (Function.update (Gen.V3 m (outs m) c) main_v10_0 (C4 m c main_v10_0)) main_v10_1 (C4 m c main_v10_1) = C4 m c
  rw [V3_eq, C4_e, C4_h]; rfl

theorem V5_eq (c : Dev nD) : Gen.V5 m (outs m) c = C5 m c := congrArg (StableHlo.after hostOps2) (V4_eq m c)
theorem V6_eq (c : Dev nD) : Gen.V6 m (outs m) c = C6 m c := by
  show Function.update (Function.update (Gen.V5 m (outs m) c) main_v15_0 (C6 m c main_v15_0)) main_v15_1 (C6 m c main_v15_1) = C6 m c
  rw [V5_eq, C6_e, C6_h]; rfl

theorem V7_eq (c : Dev nD) : Gen.V7 m (outs m) c = C7 m c := congrArg (StableHlo.after hostOps3) (V6_eq m c)
theorem V8_eq (c : Dev nD) : Gen.V8 m (outs m) c = C8 m c := by
  show Function.update (Function.update (Gen.V7 m (outs m) c) main_v20_0 (C8 m c main_v20_0)) main_v20_1 (C8 m c main_v20_1) = C8 m c
  rw [V7_eq, C8_e, C8_h]; rfl

end Cert.KernelIdeal.Hand

end
-- ==== Proof.KI.Share1.lean ====
import proofs.«113144_j23983097381472_1_alg».proof.Proof.Gen.KernelIdeal.Launch
import proofs.«113144_j23983097381472_1_alg».proof.Proof.ShareLib

noncomputable section

namespace Cert.KernelIdeal.Hand

open Cert.KernelIdeal.Gen Idealize.ShloMosaic Idealize.ShloMosaic.TcCoe
open Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

variable (c : Dev nD) (dat : Dat τ (Elt F) Unit ℕ (UR sig nD τ) ℕ cfg1 c)
  (hq1 : dat.q 1 = fullShare.left) (hq2 : dat.q 2 = fullShare.right) (hq : ∀ w : Fin cfg1.W, w ≠ 1 → w ≠ 2 → dat.q w = fullShare)
  (V : (b : Ref sig .tc) → Buf (Elt F) ((c : Thread nD τ).loc b))
  (Fa : (w : Fin cfg1.W) → Buf (Elt F) ((cfg1.win w).arr.view.loc (c : Thread nD τ)))
  (hF : ∀ w, Fa w = V (Pipeline.arrRef spec1 w))
include hq1 hq2 hq hF

/-- Windows 1 and 2 read one array; no two of the others share one. -/
theorem arrays_iff_arrBufs1 : (Pipeline.arrBufs spec1 c V : sProp 𝕄) ⊣⊢ dat.arrays Fa :=
  arrBufs_iff_arrays_halves dat (i := 1) (j := 2) (by decide) rfl rfl rfl (by decide) arr_whole1 hq1 hq2 hq V Fa hF

end Cert.KernelIdeal.Hand

end
-- ==== Proof.KI.Share2.lean ====
import proofs.«113144_j23983097381472_1_alg».proof.Proof.Gen.KernelIdeal.Launch
import proofs.«113144_j23983097381472_1_alg».proof.Proof.ShareLib

noncomputable section

namespace Cert.KernelIdeal.Hand

open Cert.KernelIdeal.Gen Idealize.ShloMosaic Idealize.ShloMosaic.TcCoe
open Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

variable (c : Dev nD) (dat : Dat τ (Elt F) Unit ℕ (UR sig nD τ) ℕ cfg2 c)
  (hq1 : dat.q 1 = fullShare.left) (hq2 : dat.q 2 = fullShare.right) (hq : ∀ w : Fin cfg2.W, w ≠ 1 → w ≠ 2 → dat.q w = fullShare)
  (V : (b : Ref sig .tc) → Buf (Elt F) ((c : Thread nD τ).loc b))
  (Fa : (w : Fin cfg2.W) → Buf (Elt F) ((cfg2.win w).arr.view.loc (c : Thread nD τ)))
  (hF : ∀ w, Fa w = V (Pipeline.arrRef spec2 w))
include hq1 hq2 hq hF

/-- Windows 1 and 2 read one array; no two of the others share one. -/
theorem arrays_iff_arrBufs2 : (Pipeline.arrBufs spec2 c V : sProp 𝕄) ⊣⊢ dat.arrays Fa :=
  arrBufs_iff_arrays_halves dat (i := 1) (j := 2) (by decide) rfl rfl rfl (by decide) arr_whole2 hq1 hq2 hq V Fa hF

end Cert.KernelIdeal.Hand

end
-- ==== Proof.KI.Share3.lean ====
import proofs.«113144_j23983097381472_1_alg».proof.Proof.Gen.KernelIdeal.Launch
import proofs.«113144_j23983097381472_1_alg».proof.Proof.ShareLib

noncomputable section

namespace Cert.KernelIdeal.Hand

open Cert.KernelIdeal.Gen Idealize.ShloMosaic Idealize.ShloMosaic.TcCoe
open Idealize.SL.RA Idealize.SL.BI Idealize.SL.BI.BIBase
open Idealize.ShloMosaic.Pipeline (Dat)

variable {F : FTy → Type} [FloatOps F]

local notation "𝕄" => MT nD τ sig Unit (Elt F) ℕ (UR sig nD τ) ℕ

variable (c : Dev nD) (dat : Dat τ (Elt F) Unit ℕ (UR sig nD τ) ℕ cfg3 c)
  (hq1 : dat.q 1 = fullShare.left) (hq2 : dat.q 2 = fullShare.right) (hq : ∀ w : Fin cfg3.W, w ≠ 1 → w ≠ 2 → dat.q w = fullShare)
  (V : (b : Ref sig .tc) → Buf (Elt F) ((c : Thread nD τ).loc b))
  (Fa : (w : Fin cfg3.W) → Buf (Elt F) ((cfg3.win w).arr.view.loc (c : Thread nD τ)))
  (hF : ∀ w, Fa w = V (Pipeline.arrRef spec3 w))
include hq1 hq2 hq hF

/-- Windows 1 and 2 read one array; no two of the others share one. -/
theorem arrays_iff_arrBufs3 : (Pipeline.arrBufs spec3 c V : sProp 𝕄) ⊣⊢ dat.arrays Fa :=
  arrBufs_iff_arrays_halves dat (i := 1) (j := 2) (by decide) rfl rfl rfl (by decide) arr_whole3 hq1 hq2 hq V Fa hF

end Cert.KernelIdeal.Hand

end
-- ==== Proof.KI.Run.lean ====
import proofs.«113144_j23983097381472_1_alg».proof.Proof.KI.Stages
import proofs.«113144_j23983097381472_1_alg».proof.Proof.KI.Share1
import proofs.«113144_j23983097381472_1_alg».proof.Proof.KI.Share2
import proofs.«113144_j23983097381472_1_alg».proof.Proof.KI.Share3
import proofs.«113144_j23983097381472_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The unscoped buffers are the arrays' buffers and the rest, so what the former yield the whole yields beside the rest. -/
theorem split_of (p : Fin 4) (hu : ∀ w, (Pipeline.arrRef (cfgs p).spec w).isScoped = false) (c : Dev nD)
    (V : (b : Ref sig .tc) → Buf (Elt F) ((c : Thread nD τ).loc b)) {A : sProp 𝕄}
    (h : (Pipeline.arrBufs (cfgs p).spec c V : sProp 𝕄) ⊢ A) :
    (unscopedBufs c V : sProp 𝕄) ⊢ iprop(A ∗ Pipeline.unscopedRest (cfgs p).spec c V) := by
  rw [Pipeline.unscopedBufs_split₀ cfgs p hu c V]
  exact sep_mono h .rfl

/-- Conversely, at any valuation that agrees with the old one off the arrays. -/
theorem join_of (p : Fin 4) (hu : ∀ w, (Pipeline.arrRef (cfgs p).spec w).isScoped = false) (c : Dev nD)
    (V V' : (b : Ref sig .tc) → Buf (Elt F) ((c : Thread nD τ).loc b)) {A : sProp 𝕄}
    (h : A ⊢ (Pipeline.arrBufs (cfgs p).spec c V' : sProp 𝕄))
    (hrest : ∀ b, b ∉ Finset.univ.image (Pipeline.arrRef (cfgs p).spec) → V' b = V b) :
    iprop(A ∗ Pipeline.unscopedRest (cfgs p).spec c V) ⊢ (unscopedBufs c V' : sProp 𝕄) := by
  rw [Pipeline.unscopedBufs_split₀ cfgs p hu c V']
  refine sep_mono h (Entails.of_eq ?_)
  unfold Pipeline.unscopedRest
  exact bigSep_congr fun b hb => by rw [hrest b (Finset.mem_sdiff.mp hb).2]

/-- An input's array ends as it began, and `V'` agrees with `V` off the written list `L`; the outputs `we`, `wh` are given. -/
theorem exit_of {cfg : Cfg sig Λ₀} {c : Dev nD} (dat : Dat τ (Elt F) Unit ℕ (UR sig nD τ) ℕ cfg c) {L : List (Ref sig .tc)}
    (we wh : Fin cfg.W) {V V' : (b : Ref sig .tc) → Buf (Elt F) ((c : Thread nD τ).loc b)}
    (hio : ∀ w, w ≠ we → w ≠ wh → (cfg.win w).isOut = false ∧ Pipeline.arrRef cfg.spec w ∉ L)
    (hA : ∀ w, dat.A w = V (Pipeline.arrRef cfg.spec w)) (hof : ∀ r, r ∉ L → V' r = V r)
    (he : dat.arrAt we cfg.N = V' (Pipeline.arrRef cfg.spec we)) (hh : dat.arrAt wh cfg.N = V' (Pipeline.arrRef cfg.spec wh))
    (w : Fin cfg.W) : dat.arrAt w cfg.N = V' (Pipeline.arrRef cfg.spec w) := by
  by_cases h1 : w = we
  · rw [h1]; exact he
  by_cases h2 : w = wh
  · rw [h2]; exact hh
  exact (dat.arrAt_in w (hio w h1 h2).1 _).trans ((hA w).trans (hof _ (hio w h1 h2).2).symm)

variable (m : (ℓ : Loc nD τ sig) → Buf (Elt F) ℓ)

def pdats : (p : Fin 4) → (c : Dev nD) → Dat τ (Elt F) Unit ℕ (UR sig nD τ) ℕ (cfgs p) c
  | ⟨0, _⟩ => fun c => dat0 (atRefs (C1 m)) c
  | ⟨1, _⟩ => fun c => dat1 (atRefs (C3 m)) c
  | ⟨2, _⟩ => fun c => dat2 (atRefs (C5 m)) c
  | ⟨3, _⟩ => fun c => dat3 (atRefs (C7 m)) c

abbrev 𝒱₀ : Variants := Variants.none
abbrev Lv0 : GSem nD τ sig → Finset Unit := fun _ => ∅
abbrev lv0 : GSem nD τ sig → Unit → ℕ := fun _ _ => 0
abbrev Rst (c : Dev nD) : sProp 𝕄 := iprop((∃ r, prngReg c r) ∗ ∃ W, owes (c : Thread nD τ) (0 : CellTallies nD τ sig Unit) W)
/-- The thread state between two items, the buffers at `V`. -/
abbrev St (V : Dev nD → Valuation τ sig (Elt F)) (c : Dev nD) : sProp 𝕄 :=
  iprop(StableHlo.held (c : Thread nD τ) (Pipeline.ucRefs τ sig) (V c) ∗ Rst c)

/-- A region runs from `St V` to `St V'` once its arrays leave the buffers at `V` and rejoin them at `V'`. -/
def regOf (p : Fin 4) (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, Pipeline.BodyObligationLoose (pdats m p c) defs₀ 𝒱₀ () Set.univ)
    (hd : ∀ c, (∀ t, (pdats m p c).owed t = 0) ∧ (∀ t, (pdats m p c).Φ t = Pipeline.ΦA (cfgs p).spec c) ∧ (pdats m p c).recorded 0 = Set.univ)
    (V V' : Dev nD → Valuation τ sig (Elt F))
    (hsplit : ∀ c, (unscopedBufs c (atRefs V c) : sProp 𝕄)
      ⊢ iprop((pdats m p c).arrays ((pdats m p c).arrAt · 0) ∗ Pipeline.unscopedRest (cfgs p).spec c (atRefs V c)))
    (hjoin : ∀ c, iprop((pdats m p c).arrays ((pdats m p c).arrAt · (cfgs p).N) ∗ Pipeline.unscopedRest (cfgs p).spec c (atRefs V c))
      ⊢ (unscopedBufs c (atRefs V' c) : sProp 𝕄)) :
    Pipeline.RegionSeg (pcfgs (F := F)) Gen.adm (pdats m) () defs₀ 𝒱₀ Lv0 lv0 p where
  win := win
  block_pos := block_pos
  stage_whole := stage_whole
  K := PEmpty
  osem k := k.elim
  ho := Pipeline.OwnSemFacts.none _
  hbody := hbody
  hwaits := Pipeline.hwaits_of_owed_zero _ _ _ _ Lv0 lv0 p fun c => (hd c).1
  pre := St V
  post := St V'
  X c := iprop(∃ r, prngReg c r)
  Y c := iprop(∃ r, prngReg c r)
  Z c := Pipeline.unscopedRest (cfgs p).spec c (atRefs V c)
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(hd c).1, (hd c).2.2]
      icases HO with ⟨%W, HO⟩; iexists W; isplitr; · ipureintro; exact fun _ _ => Or.inl trivial
      iexact HO
    isplitl [Hp]; · iexact Hp
    iexact Hrest
  hin c := by
    rw [(hd c).2.1 0]; unfold Pipeline.ΦA
    iintro ⟨Hp, -, Hr⟩
    isplitl [Hr]; · iexact Hr
    iexact Hp
  hout c := by
    rw [Pipeline.ownSems0_none, (hd c).2.1 (Fin.last _)]; unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj
      isplitl [Ha]; · iexact Ha
      iexact Hrest
    isplitl [HY]; · iexact HY
    unfold Pipeline.Dat.owesAt Pipeline.owesWithin
    rw [(hd c).1]
    icases HO with ⟨%W, -, HO⟩; iexists W; iexact HO

def reg0 :=
  regOf m 0 launch0.win.to₀ launch0.block_pos launch0.stage_whole (fun c => (body_obligation0 _ c).loose) (fun _ => ⟨fun _ => rfl, fun _ => rfl, rfl⟩)
    (Gen.V1 m) (Gen.V2 m (outs m))
    (fun c => Pipeline.arrays_of_unscopedBufs (p := 0) (pcfgs (F := F)) Gen.adm (pdats m) launch0.win launch0.arr_whole c
      ((pdats m 0 c).share_full fun _ => rfl) _ fun _ => rfl)
    (fun c => Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl) _ _ _
      (exit_of (dat0 (atRefs (C1 m)) c) 3 3 (by decide)
        (A_eq0 _ c) (Gen.V2_of m (outs m) c)
        ((congrFun (V2_eq m c) _).trans (C2_v5 m c)).symm ((congrFun (V2_eq m c) _).trans (C2_v5 m c)).symm)
      fun b hb => Gen.V2_of m (outs m) c b fun hm => hb
        ((by decide : ∀ r ∈ [main_v5], r ∈ Finset.univ.image (Pipeline.arrRef spec0)) b hm))

def reg1 :=
  regOf m 1 winFacts₀1 block_pos1 stage_whole1 (fun c => (body_obligation1 _ c).loose) (fun _ => ⟨fun _ => rfl, fun _ => rfl, rfl⟩)
    (Gen.V3 m (outs m)) (Gen.V4 m (outs m))
    (fun c => split_of 1 winFacts₀1.arr_unscoped c _ (arrays_iff_arrBufs1 c _ (dat1_q1 _ c) (dat1_q2 _ c) (dat1_q _ c) _ _
      fun w => (A_eq1 _ c w).trans (congrFun (V3_eq m c) _).symm).1)
    (fun c => join_of 1 winFacts₀1.arr_unscoped c _ _
      (arrays_iff_arrBufs1 c _ (dat1_q1 _ c) (dat1_q2 _ c) (dat1_q _ c) _ _
        (exit_of (dat1 (atRefs (C3 m)) c) 13 14 (by decide)
          (fun w => (A_eq1 _ c w).trans (congrFun (V3_eq m c) _).symm) (Gen.V4_of m (outs m) c)
          ((congrFun (V4_eq m c) _).trans (C4_e m c)).symm ((congrFun (V4_eq m c) _).trans (C4_h m c)).symm)).2
      fun b hb => Gen.V4_of m (outs m) c b fun hm => hb
        ((by decide : ∀ r ∈ [main_v10_0, main_v10_1], r ∈ Finset.univ.image (Pipeline.arrRef spec1)) b hm))

def reg2 :=
  regOf m 2 winFacts₀2 block_pos2 stage_whole2 (fun c => (body_obligation2 _ c).loose) (fun _ => ⟨fun _ => rfl, fun _ => rfl, rfl⟩)
    (Gen.V5 m (outs m)) (Gen.V6 m (outs m))
    (fun c => split_of 2 winFacts₀2.arr_unscoped c _ (arrays_iff_arrBufs2 c _ (dat2_q1 _ c) (dat2_q2 _ c) (dat2_q _ c) _ _
      fun w => (A_eq2 _ c w).trans (congrFun (V5_eq m c) _).symm).1)
    (fun c => join_of 2 winFacts₀2.arr_unscoped c _ _
      (arrays_iff_arrBufs2 c _ (dat2_q1 _ c) (dat2_q2 _ c) (dat2_q _ c) _ _
        (exit_of (dat2 (atRefs (C5 m)) c) 13 14 (by decide)
          (fun w => (A_eq2 _ c w).trans (congrFun (V5_eq m c) _).symm) (Gen.V6_of m (outs m) c)
          ((congrFun (V6_eq m c) _).trans (C6_e m c)).symm ((congrFun (V6_eq m c) _).trans (C6_h m c)).symm)).2
      fun b hb => Gen.V6_of m (outs m) c b fun hm => hb
        ((by decide : ∀ r ∈ [main_v15_0, main_v15_1], r ∈ Finset.univ.image (Pipeline.arrRef spec2)) b hm))

def reg3 :=
  regOf m 3 winFacts₀3 block_pos3 stage_whole3 (fun c => (body_obligation3 _ c).loose) (fun _ => ⟨fun _ => rfl, fun _ => rfl, rfl⟩)
    (Gen.V7 m (outs m)) (Gen.V8 m (outs m))
    (fun c => split_of 3 winFacts₀3.arr_unscoped c _ (arrays_iff_arrBufs3 c _ (dat3_q1 _ c) (dat3_q2 _ c) (dat3_q _ c) _ _
      fun w => (A_eq3 _ c w).trans (congrFun (V7_eq m c) _).symm).1)
    (fun c => join_of 3 winFacts₀3.arr_unscoped c _ _
      (arrays_iff_arrBufs3 c _ (dat3_q1 _ c) (dat3_q2 _ c) (dat3_q _ c) _ _
        (exit_of (dat3 (atRefs (C7 m)) c) 13 14 (by decide)
          (fun w => (A_eq3 _ c w).trans (congrFun (V7_eq m c) _).symm) (Gen.V8_of m (outs m) c)
          ((congrFun (V8_eq m c) _).trans (C8_e m c)).symm ((congrFun (V8_eq m c) _).trans (C8_h m c)).symm)).2
      fun b hb => Gen.V8_of m (outs m) c b fun hm => hb
        ((by decide : ∀ r ∈ [main_v20_0, main_v20_1], r ∈ Finset.univ.image (Pipeline.arrRef spec3)) b hm))

abbrev segs : List (Pipeline.Seg (pcfgs (F := F)) Gen.adm (pdats m) () defs₀ 𝒱₀ Lv0 lv0) :=
  [ .host (Gen.seg0 m 𝒱₀ Lv0 lv0 fun _ => Rst), .region (reg0 m),
    .host (Gen.seg2 m (outs m) 𝒱₀ Lv0 lv0 fun _ => Rst), .region (reg1 m),
    .host (Gen.seg4 m (outs m) 𝒱₀ Lv0 lv0 fun _ => Rst), .region (reg2 m),
    .host (Gen.seg6 m (outs m) 𝒱₀ Lv0 lv0 fun _ => Rst), .region (reg3 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every fair execution terminates with each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Gen.V8 m (outs m) c b) :=
  Pipeline.θ_run_regions_kit (pcfgs (F := F)) Gen.adm (pdats m) () cellOf_inj emb₁ defs₀ 𝒱₀ Lv0 lv0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (Gen.V0 m))
    (Tₙ := fun c => iprop(StableHlo.held (c : Thread nD τ) (Pipeline.ucRefs τ sig) (Gen.V8 m (outs m) c) ∗ ∃ r, prngReg c r))
    (hch := ⟨fun _ => .rfl, fun _ => .rfl, fun _ => .rfl, fun _ => .rfl, fun _ => .rfl, fun _ => .rfl, fun _ => .rfl, fun _ => .rfl, fun _ => sep_assoc'⟩)
    (hinit := by
      refine Pipeline.initEach Lv0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V8 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V8 m (outs m) c) s')
      isplitl [Hh] <;> iassumption)
    (hQ := fun s h c => h c)

theorem V8_nodes (c : Dev nD) : Gen.V8 m (outs m) c main_v20_1 = arr3h m c := (congrFun (V8_eq m c) _).trans (C8_h m c)
theorem V8_edges (c : Dev nD) : Gen.V8 m (outs m) c main_v20_0 = arr3e m c := (congrFun (V8_eq m c) _).trans (C8_e m c)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Arr2 (R C : Nat) : Type := (⟨2, ![R, C]⟩ : Shape).Idx → EReal

abbrev Arr1 (C : Nat) : Type := (⟨1, ![C]⟩ : Shape).Idx → EReal

def mat {R C : Nat} (A : Arr2 R C) : Fin R → Fin C → EReal := fun r c => A (ix2 r c)

def vec {C : Nat} (b : Arr1 C) : Fin C → EReal := fun c => b (ix1 c)

def row0 {C : Nat} (b : Arr2 1 C) : Fin C → EReal := fun c => b (ix2 0 c)

-- where the node pair (i, j) sits among a tile's edge rows
def pairRow {NI : Nat} (i : Fin NI) (j : Fin 768) : Fin (NI * 768) :=
  ⟨i.val * 768 + j.val, by have := i.isLt; have := j.isLt; nlinarith⟩

def edges {NI C : Nat} (A : Fin (NI * 768) → Fin C → EReal) : Fin NI → Fin 768 → Fin C → EReal :=
  fun i j c => A (pairRow i j) c

def mm {R K C : Nat} (x : Fin R → Fin K → EReal) (W : Fin K → Fin C → EReal) (r : Fin R) (c : Fin C) : EReal :=
  ∑ k : Fin K, x r k * W k c

def lin {R K C : Nat} (x : Fin R → Fin K → EReal) (W : Fin K → Fin C → EReal) (b : Fin C → EReal) (r : Fin R) (c : Fin C) : EReal :=
  mm x W r c + b c

-- the pair score: dot product of the two nodes' projections
def pair {NI H : Nat} (hI : Fin NI → Fin H → EReal) (hJ : Fin 768 → Fin H → EReal) (Wi Wj : Fin H → Fin H → EReal)
    (i : Fin NI) (j : Fin 768) : EReal :=
  ∑ l : Fin H, mm hI Wi i l * mm hJ Wj j l

-- the pair feature: the edge row's affine image shifted by the pair score, rectified
def hidden {NI H : Nat} (e : Fin NI → Fin 768 → Fin H → EReal) (hI : Fin NI → Fin H → EReal) (hJ : Fin 768 → Fin H → EReal)
    (Weij : Fin H → Fin H → EReal) (beij : Fin H → EReal) (Wi Wj : Fin H → Fin H → EReal)
    (i : Fin NI) (j : Fin 768) (k : Fin H) : EReal :=
  max (((∑ k' : Fin H, e i j k' * Weij k' k) + beij k) + pair hI hJ Wi Wj i j) 0

-- residual update of an edge row through the pair feature
def newE {NI H : Nat} (e : Fin NI → Fin 768 → Fin H → EReal) (hI : Fin NI → Fin H → EReal) (hJ : Fin 768 → Fin H → EReal)
    (Weij : Fin H → Fin H → EReal) (beij : Fin H → EReal) (Wi Wj Wde : Fin H → Fin H → EReal) (bde : Fin H → EReal)
    (i : Fin NI) (j : Fin 768) (c : Fin H) : EReal :=
  e i j c + ((∑ k : Fin H, hidden e hI hJ Weij beij Wi Wj i j k * Wde k c) + bde c)

-- residual update of a node row from the messages of its 768 already-updated edges
def newH {NI H : Nat} (e' : Fin NI → Fin 768 → Fin H → EReal) (hI : Fin NI → Fin H → EReal)
    (Wdv1 : Fin H → Fin H → EReal) (bdv1 : Fin H → EReal) (Wdv2 : Fin H → Fin H → EReal) (bdv2 : Fin H → EReal)
    (i : Fin NI) (c : Fin H) : EReal :=
  hI i c + ((∑ k : Fin H, (0 + ∑ j : Fin 768, ((∑ k' : Fin H, e' i j k' * Wdv1 k' k) + bdv1 k)) * Wdv2 k c) + bdv2 c)

def rowI (r : Fin 589824) : Fin 768 := ⟨r.val / 768, by have := r.isLt; omega⟩

def rowJ (r : Fin 589824) : Fin 768 := ⟨r.val % 768, by omega⟩

def edgesW {C : Nat} (A : Arr2 589824 C) : Fin 768 → Fin 768 → Fin C → EReal :=
  fun i j c => A (ix2 ⟨i.val * 768 + j.val, by have := i.isLt; have := j.isLt; omega⟩ c)

def encE (x : Arr2 589824 16) (W : Arr2 16 100) (b : Fin 100 → EReal) : Arr2 589824 100 :=
  fun i => lin (mat x) (mat W) b (i 0) (i 1)

def encH (x : Arr2 768 32) (W : Arr2 32 100) (b : Fin 100 → EReal) : Arr2 768 100 :=
  fun i => lin (mat x) (mat W) b (i 0) (i 1)

def stepE (e : Arr2 589824 100) (h : Arr2 768 100) (Weij : Arr2 100 100) (beij : Fin 100 → EReal)
    (Wi Wj Wde : Arr2 100 100) (bde : Fin 100 → EReal) : Arr2 589824 100 :=
  fun i => newE (edgesW e) (mat h) (mat h) (mat Weij) beij (mat Wi) (mat Wj) (mat Wde) bde (rowI (i 0)) (rowJ (i 0)) (i 1)

def stepH (e' : Arr2 589824 100) (h : Arr2 768 100) (Wdv1 : Arr2 100 100) (bdv1 : Fin 100 → EReal)
    (Wdv2 : Arr2 100 100) (bdv2 : Fin 100 → EReal) : Arr2 768 100 :=
  fun i => newH (edgesW e') (mat h) (mat Wdv1) bdv1 (mat Wdv2) bdv2 (i 0) (i 1)

structure Weights where
  Weij : Arr2 100 100
  beij : Fin 100 → EReal
  Wi : Arr2 100 100
  Wj : Arr2 100 100
  Wde : Arr2 100 100
  bde : Fin 100 → EReal
  Wdv1 : Arr2 100 100
  bdv1 : Fin 100 → EReal
  Wdv2 : Arr2 100 100
  bdv2 : Fin 100 → EReal

-- one round: the nodes see the edges already updated
def step (p : Weights) (s : Arr2 589824 100 × Arr2 768 100) : Arr2 589824 100 × Arr2 768 100 :=
  (stepE s.1 s.2 p.Weij p.beij p.Wi p.Wj p.Wde p.bde,
   stepH (stepE s.1 s.2 p.Weij p.beij p.Wi p.Wj p.Wde p.bde) s.2 p.Wdv1 p.bdv1 p.Wdv2 p.bdv2)

def weightsOf (x6 : Arr2 100 100) (x7 : Arr1 100) (x8 x9 x10 : Arr2 100 100) (x11 : Arr1 100) (x12 : Arr2 100 100) (x13 : Arr1 100)
    (x14 : Arr2 100 100) (x15 : Arr1 100) : Weights :=
  ⟨x6, vec x7, x8, x9, x10, vec x11, x12, vec x13, x14, vec x15⟩

-- encode both arrays, then three rounds
def final (x0 : Arr2 768 32) (x1 : Arr2 589824 16) (x2 : Arr2 32 100) (x3 : Arr1 100) (x4 : Arr2 16 100) (x5 : Arr1 100)
    (x6 : Arr2 100 100) (x7 : Arr1 100) (x8 x9 x10 : Arr2 100 100) (x11 : Arr1 100) (x12 : Arr2 100 100) (x13 : Arr1 100)
    (x14 : Arr2 100 100) (x15 : Arr1 100) : Arr2 589824 100 × Arr2 768 100 :=
  step (weightsOf x6 x7 x8 x9 x10 x11 x12 x13 x14 x15) (step (weightsOf x6 x7 x8 x9 x10 x11 x12 x13 x14 x15)
    (step (weightsOf x6 x7 x8 x9 x10 x11 x12 x13 x14 x15) (encE x1 x4 (vec x5), encH x0 x2 (vec x3))))

end Cert.Spec

end
-- ==== Proof.KI.Host.lean ====
import proofs.«113144_j23983097381472_1_alg».proof.Proof.Spec
import proofs.«113144_j23983097381472_1_alg».proof.Proof.Gen.KernelIdeal.Regions
import Idealize.ShloMosaic.Lib.StableHlo.Run
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

-- Entry (0, c) of the one-row view is entry 0 · 100 + c = c of the vector.
theorem row0_cast {y : Cert.Spec.Arr2 1 100} {x x' : Cert.Spec.Arr1 100} (e : y = shapeCast S1x100 x shapeCasts_S100_S1x100) (hx : x = x') :
    Cert.Spec.row0 y = Cert.Spec.vec x' :=
  hx ▸ e ▸ funext fun col => shapeCast_a_1a_apply x _ 0 col

-- Both encoders' products contract a single axis; this re-indexes such a sum by that axis's coordinate.
theorem sum_contr {sl sr so : Shape} (D : DotDims sl sr so) (n : Nat) (hr : D.contr.rank = 1) (hs : D.contr.size ⟨0, by omega⟩ = n)
    (x : sl.Idx → EReal) (w : sr.Idx → EReal) (j : so.Idx) (L : Fin n → sl.Idx) (R : Fin n → sr.Idx)
    (hl : ∀ q, D.lhsIdx j q = L (contrEquiv1 D n hr hs q)) (hR : ∀ q, D.rhsIdx j q = R (contrEquiv1 D n hr hs q)) :
    ∑ q, x (D.lhsIdx j q) * w (D.rhsIdx j q) = ∑ k, x (L k) * w (R k) :=
  (Finset.sum_congr rfl fun q _ => by rw [hl q, hR q]).trans (Equiv.sum_comp (contrEquiv1 D n hr hs) fun k => x (L k) * w (R k))

theorem node_dot_at (x : FVec Ideal S768x32 .f32) (w : FVec Ideal S32x100 .f32) (r : Fin 768) (col : Fin 100) :
    Host.dotGeneral (F := Ideal) dot_S768x32_S32x100_S768x100_1_0_0_1_n_n none x w (ix2 r col) = ∑ k : Fin 32, x (ix2 r k) * w (ix2 k col) := by
  simp only [Host.dotGeneral]
  rw [Ideal.dotGeneral_apply]
  exact sum_contr _ 32 rfl rfl x w _ (ix2 r ·) (ix2 · col)
    (fun q => funext fun a => Fin.ext (by match a with | ⟨0, _⟩ => rfl | ⟨1, _⟩ => rfl))
    (fun q => funext fun a => Fin.ext (by match a with | ⟨0, _⟩ => rfl | ⟨1, _⟩ => rfl))

theorem node_bias_at (b : FVec Ideal S100 .f32) (r : Fin 768) (col : Fin 100) :
    broadcastInDim S768x100 ![0, 1] bcast_S1x100_S768x100_0_1 (broadcastInDim S1x100 ![1] bcast_S100_S1x100_1 b) (ix2 r col) = b (ix1 col) :=
  (broadcastInDim_apply _ bcast_S1x100_S768x100_0_1 _ (ix2 r col) (ix2 0 col) fun a => by match a with | ⟨0, _⟩ => rfl | ⟨1, _⟩ => rfl).trans
    (broadcastInDim_apply _ bcast_S100_S1x100_1 b (ix2 0 col) (ix1 col) fun a => by match a with | ⟨0, _⟩ => rfl)

variable (W : Valuation τ sig (Elt Ideal))

-- Product plus spread bias, entry by entry, is the specification's dense layer.
theorem host0_nodes :
    (StableHlo.after hostOps0 W main_v3 : Cert.Spec.Arr2 768 100) = Cert.Spec.encH (W main_arg0) (W main_arg2) (Cert.Spec.vec (W main_arg3)) := by
  show StableHlo.after hostOps0 W (Proc.devRef .tc main_v3) = _
  after_results
  funext i
  obtain ⟨r, col, rfl⟩ : ∃ (r : Fin 768) (col : Fin 100), i = ix2 r col := ⟨i 0, i 1, eq_ix2 i⟩
  rw [addf_apply, node_dot_at, node_bias_at]
  rfl

theorem host0_bias : Cert.Spec.row0 (StableHlo.after hostOps0 W main_v4) = Cert.Spec.vec (W main_arg5) :=
  row0_cast (by after_results; rfl) rfl

end Cert.KernelIdeal.Hand

end
-- ==== Proof.KI.Val0.lean ====
import proofs.«113144_j23983097381472_1_alg».proof.Proof.Spec
import proofs.«113144_j23983097381472_1_alg».proof.Proof.KI.Body0
import proofs.«113144_j23983097381472_1_alg».proof.Proof.KI.Host

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem enc_matmul_at (a : FVec Ideal S24576x16 .bf16) (b : FVec Ideal S16x100 .bf16) (r : Fin 24576) (col : Fin 100) :
    matmul (F := Ideal) dot_S24576x16_S16x100_S24576x100_1_0_0_1_n_n none a b (constant (F := Ideal) S24576x100 .f32 0x00000000#32) (ix2 r col)
      = ∑ k : Fin 16, a (ix2 r k) * b (ix2 k col) := by
  simp only [matmul]
  rw [Ideal.matmul_constant_zero_apply]
  exact sum_contr _ 16 rfl rfl a b _ (ix2 r ·) (ix2 · col)
    (fun q => funext fun a => Fin.ext (by match a with | ⟨0, _⟩ => rfl | ⟨1, _⟩ => rfl))
    (fun q => funext fun a => Fin.ext (by match a with | ⟨0, _⟩ => rfl | ⟨1, _⟩ => rfl))

theorem enc_bias_at (x2 : Vec Ideal S1x100 .f32) (r : Fin 24576) (col : Fin 100) :
    broadcastTo S24576x100 (shapeCast S1x100 x2 shapeCasts_S1x100_S1x100) broadcasts_S1x100_S24576x100 (ix2 r col) = x2 (ix2 0 col) := by
  rw [shapeCast_self]
  exact broadcastTo_1b_ab_apply x2 _ r col

variable (V : (c : Dev nD) → (b : Ref sig .tc) → Buf (Elt Ideal) ((c : Thread nD τ).loc b))

theorem enc_hz : (![0, 0] : Fin 2 → Nat) = fun _ => 0 := funext fun a => by fin_cases a <;> rfl

theorem enc_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem enc_t_lt (t : Fin cfg0.N) : t.val < 24 := lt_of_lt_of_eq t.isLt (show cfg0.N = 24 from N_0)

def tileRow (t : Fin cfg0.N) (r : Fin 24576) : Fin 589824 :=
  ⟨t.val * 24576 + r.val, by have := enc_t_lt t; have := r.isLt; omega⟩

theorem enc_blk_x (c : Dev nD) (t : Fin cfg0.N) (r : Fin 24576) (k : Fin 16) :
    (iblk0 V c 0 t : Vec Ideal S24576x16 .f32) (ix2 r k) = (V c main_arg1 : Cert.Spec.Arr2 589824 16) (ix2 (tileRow t r) k) := by
  obtain ⟨e00, e01, -⟩ := enc_idx_facts t
  show V c main_arg1 (((cfg0.win 0).blk t).view.emb (ix2 r k)) = V c main_arg1 (ix2 (tileRow t r) k)
  refine congrArg (V c main_arg1) (funext fun a => Fin.ext ?_)
  match a with
  | ⟨0, _⟩ => show win0_0.index t (0 : Fin 2) * 24576 + 1 * r.val = t.val * 24576 + r.val; rw [e00]; omega
  | ⟨1, _⟩ => show win0_0.index t (1 : Fin 2) * 16 + 1 * k.val = k.val; rw [e01]; omega

theorem enc_blk_w (c : Dev nD) (t : Fin cfg0.N) (k : Fin 16) (col : Fin 100) :
    (iblk0 V c 1 t : Vec Ideal S16x100 .f32) (ix2 k col) = (V c main_arg4 : Cert.Spec.Arr2 16 100) (ix2 k col) := by
  obtain ⟨-, -, e10, e11, -⟩ := enc_idx_facts t
  show V c main_arg4 (((cfg0.win 1).blk t).view.emb (ix2 k col)) = V c main_arg4 (ix2 k col)
  refine congrArg (V c main_arg4) (funext fun a => Fin.ext ?_)
  match a with
  | ⟨0, _⟩ => show win0_1.index t (0 : Fin 2) * 16 + 1 * k.val = k.val; rw [e10]; omega
  | ⟨1, _⟩ => show win0_1.index t (1 : Fin 2) * 100 + 1 * col.val = col.val; rw [e11]; omega

theorem enc_blk_b (c : Dev nD) (t : Fin cfg0.N) (col : Fin 100) :
    (iblk0 V c 2 t : Vec Ideal S1x100 .f32) (ix2 0 col) = (V c main_v4 : Cert.Spec.Arr2 1 100) (ix2 0 col) := by
  obtain ⟨-, -, -, -, e20, e21, -⟩ := enc_idx_facts t
  show V c main_v4 (((cfg0.win 2).blk t).view.emb (ix2 0 col)) = V c main_v4 (ix2 0 col)
  refine congrArg (V c main_v4) (funext fun a => Fin.ext ?_)
  match a with
  | ⟨0, _⟩ => show win0_2.index t (0 : Fin 2) * 1 + 1 * 0 = 0; rw [e20]
  | ⟨1, _⟩ => show win0_2.index t (1 : Fin 2) * 100 + 1 * col.val = col.val; rw [e21]; omega

theorem enc_out_emb (t : Fin cfg0.N) (r : Fin 24576) (col : Fin 100) :
    ((cfg0.win 3).blk t).view.emb (ix2 r col) = (ix2 (tileRow t r) col : S589824x100.Idx) := by
  obtain ⟨-, -, -, -, -, -, e30, e31⟩ := enc_idx_facts t
  refine funext fun a => Fin.ext ?_
  match a with
  | ⟨0, _⟩ => show win0_3.index t (0 : Fin 2) * 24576 + 1 * r.val = t.val * 24576 + r.val; rw [e30]; omega
  | ⟨1, _⟩ => show win0_3.index t (1 : Fin 2) * 100 + 1 * col.val = col.val; rw [e31]; omega

theorem enc_tile {X W B x0 x1 x2} (r : Fin 24576) (col : Fin 100) (R : Fin 589824)
    (h0 : ∀ k : Fin 16, x0 (ix2 r k) = X (ix2 R k)) (h1 : ∀ k : Fin 16, x1 (ix2 k col) = W (ix2 k col)) (h2 : x2 (ix2 0 col) = B (ix2 0 col)) :
    k0_pay1 (F := Ideal) x0 x1 x2 (ix2 r col) = Cert.Spec.encE X W (Cert.Spec.row0 B) (ix2 R col) := by
  unfold k0_pay1
  refine (addf_apply _ _ _).trans ((congrArg₂ (· + ·) (enc_matmul_at _ _ r col) (enc_bias_at x2 r col)).trans ?_)
  show (∑ k : Fin 16, x0 (ix2 r k) * x1 (ix2 k col)) + x2 (ix2 0 col) = (∑ k : Fin 16, X (ix2 R k) * W (ix2 k col)) + B (ix2 0 col)
  rw [h2]
  exact congrArg (· + B (ix2 0 col)) (Finset.sum_congr rfl fun k _ => by rw [h0 k, h1 k])

theorem enc_flushed (c : Dev nD) (t : Fin cfg0.N) :
    (dat0 (F := Ideal) V c).flushed 3 t
      = ((cfg0.win 3).blk t).view.read (Elt Ideal) (Cert.Spec.encE (V c main_arg1) (V c main_arg4) (Cert.Spec.row0 (V c main_v4))) := by
  show (cfg0.win 3).cut (grid0.coords t) ((dat0 (F := Ideal) V c).after 3 t) = _
  rw [after0_3]
  unfold out0_3
  rw [View.canon_unit_zero enc_hz]
  simp only [View.ld_unit_zero (S := S24576x16) enc_hz, View.ld_unit_zero (S := S16x100) enc_hz, View.ld_unit_zero (S := S1x100) enc_hz]
  funext j
  obtain ⟨r, col, rfl⟩ : ∃ (r : Fin 24576) (col : Fin 100), j = ix2 r col := ⟨j 0, j 1, eq_ix2 j⟩
  refine (enc_tile r col (tileRow t r) (fun k => enc_blk_x V c t r k) (fun k => enc_blk_w V c t k col) (enc_blk_b V c t col)).trans ?_
  show _ = Cert.Spec.encE (V c main_arg1) (V c main_arg4) (Cert.Spec.row0 (V c main_v4)) (((cfg0.win 3).blk t).view.emb (ix2 r col))
  rw [enc_out_emb]

theorem enc_mem_blk (t : Fin cfg0.N) (i : S589824x100.Idx) :
    i ∈ ((cfg0.win 3).blk t).view.set ↔ ∀ a : Fin 2, win0_3.index t a * S24576x100.size a ≤ (i a).val ∧ (i a).val < win0_3.index t a * S24576x100.size a + S24576x100.size a := by
  show i ∈ ((View.whole main_v5).slice (win0_3.rect t)).set ↔ _
  rw [View.set_slice_whole, Rect.mem_set_unit]
  exact Iff.rfl

theorem enc_cover (i : S589824x100.Idx) : ∃ t : Fin cfg0.N, (cfg0.win 3).flush t = true ∧ i ∈ ((cfg0.win 3).blk t).view.set := by
  have hi0 : (i 0).val < 589824 := (i 0).isLt
  have hi1 : (i 1).val < 100 := (i 1).isLt
  obtain ⟨t, ht⟩ : ∃ t : Fin cfg0.N, t.val = (i 0).val / 24576 := ⟨⟨(i 0).val / 24576, by rw [show cfg0.N = 24 from N_0]; omega⟩, rfl⟩
  refine ⟨t, flush0_3 t, ?_⟩
  rw [enc_mem_blk]
  obtain ⟨-, -, -, -, -, -, e30, e31⟩ := enc_idx_facts t
  intro a
  match a with
  | ⟨0, _⟩ => show win0_3.index t (0 : Fin 2) * 24576 ≤ (i 0).val ∧ (i 0).val < win0_3.index t (0 : Fin 2) * 24576 + 24576; rw [e30, ht]; omega
  | ⟨1, _⟩ => show win0_3.index t (1 : Fin 2) * 100 ≤ (i 1).val ∧ (i 1).val < win0_3.index t (1 : Fin 2) * 100 + 100; rw [e31]; omega

theorem edges0 (c : Dev nD) :
    (dat0 (F := Ideal) V c).arrAt 3 cfg0.N = Cert.Spec.encE (V c main_arg1) (V c main_arg4) (Cert.Spec.row0 (V c main_v4)) :=
  (dat0 (F := Ideal) V c).arrAt_eq_of_cover 3 (Cert.Spec.encE (V c main_arg1) (V c main_arg4) (Cert.Spec.row0 (V c main_v4)))
    (fun t _ => enc_flushed V c t) enc_cover

end Cert.KernelIdeal.Hand

end
-- ==== Proof.KI.PayOps.lean ====
import proofs.«113144_j23983097381472_1_alg».proof.Proof.Spec
import proofs.«113144_j23983097381472_1_alg».proof.Proof.Gen.KernelIdeal.Skeleton
import Idealize.ShloMosaic.Lib.ValueLayout
import Idealize.ShloMosaic.Lib.StackMember

noncomputable section

namespace Cert.KernelIdeal.Hand

open Cert.KernelIdeal Cert.KernelIdeal.Gen Cert.Spec Idealize.ShloMosaic Idealize.ShloMosaic.ValueIdx

/-- The product A · B with both operands narrowed to the short format, accumulated from zero. -/
def mm0 {sl sr so : Shape} (D : DotDims sl sr so) (A : FVec Ideal sl .f32) (B : FVec Ideal sr .f32) : FVec Ideal so .f32 :=
  matmul D none (truncf .bf16 A bitsLt_bf16_f32) (truncf .bf16 B bitsLt_bf16_f32) (constant (F := Ideal) so .f32 0x00000000#32)

/-- Narrowing changes no extended real: at (r, c) the product from zero is the sum over l of A r l · B l c. -/
theorem mm0_apply {m k n : ℕ} (A : FVec Ideal ⟨2, ![m, k]⟩ .f32) (B : FVec Ideal ⟨2, ![k, n]⟩ .f32) (r : Fin m) (c : Fin n) :
    mm0 (DotDims.plain m k n) A B (ix2 r c) = ∑ l : Fin k, A (ix2 r l) * B (ix2 l c) :=
  (congrFun (matmul_zero_eq_dotGeneral _ none _ _) _).trans (StackMember.dotGeneral_plain_apply none _ _ r c)

/-- A projection x · W of the rows of x is the specification's product. -/
theorem proj_apply {m : ℕ} (x : Vec Ideal ⟨2, ![m, 100]⟩ .f32) (hc) (W : Vec Ideal S100x100 .f32) (i : Fin m) (l : Fin 100) :
    mm0 (DotDims.plain m 100 100) (shapeCast _ x hc) W (ix2 i l) = mm (mat x) (mat W) i l := by
  rw [shapeCast_self]
  exact mm0_apply _ _ i l

/-- The flat edge tile read by node pair: the pair (i, j) sits in the flat row i · 768 + j. -/
theorem toPairs_apply {α : Type} (x : S6144x100.Idx → α) (i : Fin 8) (j : Fin 768) (c : Fin 100) :
    shapeCast S8x768x100 x shapeCasts_S6144x100_S8x768x100 (ix3 i j c) = x (ix2 (pairRow (NI := 8) i j) c) :=
  shapeCast_apply x _ _ _ (by rw [Shape.rowMajor_val_two, Shape.rowMajor_val_three]; rfl)

theorem toFlat_apply {α : Type} (x : S8x768x100.Idx → α) (i : Fin 8) (j : Fin 768) (c : Fin 100) :
    shapeCast S6144x100 x shapeCasts_S8x768x100_S6144x100 (ix2 (pairRow (NI := 8) i j) c) = x (ix3 i j c) :=
  shapeCast_apply x _ _ _ (by rw [Shape.rowMajor_val_two, Shape.rowMajor_val_three]; rfl)

/-- A value per node pair, given a unit feature axis and spread over the 100 features, is read at (i, j) whatever the feature. -/
theorem spreadPair_apply {α : Type} (x : S8x768.Idx → α) (i : Fin 8) (j : Fin 768) (c : Fin 100) :
    broadcastTo S8x768x100 (shapeCast S8x768x1 x shapeCasts_S8x768_S8x768x1) broadcasts_S8x768x1_S8x768x100 (ix3 i j c) = x (ix2 i j) :=
  (broadcastTo_apply _ _ _ (ix3 i j (0 : Fin 1)) fun a => match a with | ⟨0, _⟩ => rfl | ⟨1, _⟩ => rfl | ⟨2, _⟩ => rfl).trans
    (shapeCast_apply x _ _ _ (by rw [Shape.rowMajor_val_two, Shape.rowMajor_val_three]; exact (Nat.mul_one _).symm))

/-- Summing out the neighbour axis: the index lifted from (i, c) at j is the triple (i, j, c), coordinate by coordinate. -/
theorem sumNeighbours_apply (x : FVec Ideal S8x768x100 .f32) (i : Fin 8) (c : Fin 100) :
    multiReduction (F := Ideal) .add [1] S8x100 x 0x00000000#32 reduces_S8x768x100_S8x100 (.inl rfl) rfl (ix2 i c)
      = ∑ j : Fin 768, x (ix3 i j c) :=
  (Ideal.multiReduction_add_single x _ _ _ rfl _).trans (Finset.sum_congr rfl fun j _ => congrArg x (funext fun a => Fin.ext
    (match a with | ⟨0, _⟩ => rfl | ⟨1, _⟩ => rfl | ⟨2, _⟩ => rfl)))

end Cert.KernelIdeal.Hand

end
-- ==== Proof.KI.PayVal.lean ====
import proofs.«113144_j23983097381472_1_alg».proof.Proof.KI.PayOps

noncomputable section

namespace Cert.KernelIdeal.Hand

open Cert.KernelIdeal Cert.KernelIdeal.Gen Cert.Spec Idealize.ShloMosaic Idealize.ShloMosaic.ValueIdx

variable (E : FVec Ideal S6144x100 .f32) (W : Vec Ideal S100x100 .f32) (b : Vec Ideal S1x100 .f32)

/-- The dense layer E · W + b on the flat edge tile. -/
def linE : FVec Ideal S6144x100 .f32 :=
  addf (mm0 dot_S6144x100_S100x100_S6144x100_1_0_0_1_n_n E W)
    (broadcastTo S6144x100 (shapeCast S1x100 b shapeCasts_S1x100_S1x100) broadcasts_S1x100_S6144x100)

theorem linE_apply (r : Fin 6144) (k : Fin 100) :
    linE E W b (ix2 r k) = (∑ k' : Fin 100, E (ix2 r k') * W (ix2 k' k)) + b (ix2 (0 : Fin 1) k) := by
  unfold linE
  rw [shapeCast_self]
  exact congrArg₂ (· + ·) (mm0_apply _ _ r k) (broadcastTo_1b_ab_apply _ _ r k)

variable (v0 : Vec Ideal S6144x100 .f32) (v2 : Vec Ideal S100x100 .f32) (v6 : Vec Ideal S1x100 .f32) (v10 : Vec Ideal S8x100 .f32)
  (v12 : Vec Ideal S768x100 .f32) (v14 v16 v33 : Vec Ideal S100x100 .f32) (v37 : Vec Ideal S1x100 .f32)
  (h : FVec Ideal S8x100 .f32) (v43 : Vec Ideal S100x100 .f32) (v47 : Vec Ideal S1x100 .f32)
  (v53 : Vec Ideal S100x100 .f32) (v57 : Vec Ideal S1x100 .f32)

/-- pair i j = Σ_l (h_I · W_i) i l · (h_J · W_j) j l, as one product against the transposed second projection. -/
def pairDots : FVec Ideal S8x768 .f32 :=
  mm0 dot_S8x100_S100x768_S8x768_1_0_0_1_n_n
    (mm0 dot_S8x100_S100x100_S8x100_1_0_0_1_n_n (shapeCast S8x100 v10 shapeCasts_S8x100_S8x100) v14)
    (transpose S100x768 [1, 0]
      (mm0 dot_S768x100_S100x100_S768x100_1_0_0_1_n_n (shapeCast S768x100 v12 shapeCasts_S768x100_S768x100) v16)
      transposes_S768x100_p1_0_S100x768)

/-- max (e · W_eij + b_eij + pair) 0, formed by node pair and laid out flat again. -/
def hiddenV : FVec Ideal S6144x100 .f32 :=
  shapeCast S6144x100
    (maximumf
      (addf (shapeCast S8x768x100 (linE (shapeCast S6144x100 v0 shapeCasts_S6144x100_S6144x100) v2 v6) shapeCasts_S6144x100_S8x768x100)
        (broadcastTo S8x768x100 (shapeCast S8x768x1 (pairDots v10 v12 v14 v16) shapeCasts_S8x768_S8x768x1) broadcasts_S8x768x1_S8x768x100))
      (broadcast S8x768x100 (Scalar.ofBits (F := Ideal) .f32 0x00000000#32)))
    shapeCasts_S8x768x100_S6144x100

def edgesNew : FVec Ideal S6144x100 .f32 :=
  addf (shapeCast S6144x100 v0 shapeCasts_S6144x100_S6144x100) (linE (hiddenV v0 v2 v6 v10 v12 v14 v16) v33 v37)

theorem pairDots_apply (i : Fin 8) (j : Fin 768) :
    pairDots v10 v12 v14 v16 (ix2 i j) = pair (mat v10) (mat v12) (mat v14) (mat v16) i j :=
  (mm0_apply _ _ i j).trans (Finset.sum_congr rfl fun l _ => congrArg₂ (· * ·) (proj_apply v10 _ v14 i l)
    ((transpose_ix2_apply _ _ l j).trans (proj_apply v12 _ v16 j l)))

theorem hiddenV_apply (i : Fin 8) (j : Fin 768) (k : Fin 100) :
    hiddenV v0 v2 v6 v10 v12 v14 v16 (ix2 (pairRow (NI := 8) i j) k)
      = hidden (edges (NI := 8) (mat v0)) (mat v10) (mat v12) (mat v2) (row0 v6) (mat v14) (mat v16) i j k := by
  unfold hiddenV
  rw [shapeCast_self, toFlat_apply, maximumf_apply, addf_apply, toPairs_apply, spreadPair_apply, linE_apply, pairDots_apply,
    broadcast_apply]
  exact congrArg (max _) Ideal.ofBits_zero_f32

/-- Entrywise, the residual step over the dense layer of the hidden feature is newE. -/
theorem edgesNew_apply (i : Fin 8) (j : Fin 768) (c : Fin 100) :
    edgesNew v0 v2 v6 v10 v12 v14 v16 v33 v37 (ix2 (pairRow (NI := 8) i j) c)
      = newE (edges (NI := 8) (mat v0)) (mat v10) (mat v12) (mat v2) (row0 v6) (mat v14) (mat v16) (mat v33) (row0 v37) i j c := by
  unfold edgesNew
  rw [shapeCast_self, addf_apply, linE_apply]
  exact congrArg (fun z => v0 _ + (z + v37 _)) (Finset.sum_congr rfl fun k _ =>
    congrArg (· * _) (hiddenV_apply v0 v2 v6 v10 v12 v14 v16 i j k))

/-- agg i = Σ_j (E · W_dv1 + b_dv1) (i, j). -/
def aggV : FVec Ideal S8x100 .f32 :=
  multiReduction (F := Ideal) .add [1] S8x100 (shapeCast S8x768x100 (linE E v43 v47) shapeCasts_S6144x100_S8x768x100) 0x00000000#32
    reduces_S8x768x100_S8x100 (.inl rfl) rfl

def nodesNew : FVec Ideal S8x100 .f32 :=
  addf h
    (addf (mm0 dot_S8x100_S100x100_S8x100_1_0_0_1_n_n (aggV E v43 v47) v53)
      (broadcastTo S8x100 (shapeCast S1x100 v57 shapeCasts_S1x100_S1x100) broadcasts_S1x100_S8x100))

theorem aggV_apply (i : Fin 8) (k : Fin 100) :
    aggV E v43 v47 (ix2 i k)
      = ∑ j : Fin 768, ((∑ k' : Fin 100, E (ix2 (pairRow (NI := 8) i j) k') * v43 (ix2 k' k)) + v47 (ix2 (0 : Fin 1) k)) :=
  (sumNeighbours_apply _ i k).trans (Finset.sum_congr rfl fun j _ => (toPairs_apply _ i j k).trans (linE_apply E v43 v47 _ k))

/-- Entrywise this is newH; its 0 + in front of the neighbour sum adds nothing. -/
theorem nodesNew_apply (i : Fin 8) (c : Fin 100) :
    nodesNew E h v43 v47 v53 v57 (ix2 i c)
      = newH (edges (NI := 8) (mat E)) (mat h) (mat v43) (row0 v47) (mat v53) (row0 v57) i c := by
  unfold nodesNew
  rw [shapeCast_self]
  exact congrArg₂ (fun z w => h _ + (z + w)) ((mm0_apply _ _ i c).trans (Finset.sum_congr rfl fun k _ =>
    congrArg (· * _) ((aggV_apply E v43 v47 i k).trans (zero_add _).symm))) (broadcastTo_1b_ab_apply _ _ i c)

end Cert.KernelIdeal.Hand

end
-- ==== Proof.KI.Pay1.lean ====
import proofs.«113144_j23983097381472_1_alg».proof.Proof.KI.PayVal

noncomputable section

namespace Cert.KernelIdeal.Hand

open Cert.KernelIdeal Cert.KernelIdeal.Gen Idealize.ShloMosaic

variable (v0 : Vec Ideal S6144x100 .f32) (v2 : Vec Ideal S100x100 .f32) (v6 : Vec Ideal S1x100 .f32) (v10 : Vec Ideal S8x100 .f32)
  (v12 : Vec Ideal S768x100 .f32) (v14 v16 v33 : Vec Ideal S100x100 .f32) (v37 : Vec Ideal S1x100 .f32) (v43 : Vec Ideal S100x100 .f32)
  (v47 : Vec Ideal S1x100 .f32) (v53 : Vec Ideal S100x100 .f32) (v57 : Vec Ideal S1x100 .f32)

theorem pay_edges1 : k1_pay1 (F := Ideal) (k1_pay3 v0) (k1_pay5 v0 v2 v6 v10 v12 v14 v16 v33) v37
    = edgesNew v0 v2 v6 v10 v12 v14 v16 v33 v37 := rfl

theorem pay_nodes1 : k1_pay2 (F := Ideal) (k1_pay3 v0) (k1_pay4 v10) (k1_pay5 v0 v2 v6 v10 v12 v14 v16 v33) v37 v43 v47 v53 v57
    = nodesNew (edgesNew v0 v2 v6 v10 v12 v14 v16 v33 v37) (shapeCast S8x100 v10 shapeCasts_S8x100_S8x100) v43 v47 v53 v57 := rfl

end Cert.KernelIdeal.Hand

end
-- ==== Proof.KI.Tile.lean ====
import proofs.«113144_j23983097381472_1_alg».proof.Proof.KI.PayVal

noncomputable section

namespace Cert.KernelIdeal.Hand

open Cert.KernelIdeal Cert.KernelIdeal.Gen Idealize.ShloMosaic Idealize.ShloMosaic.ValueIdx
open Cert.Spec (Arr2 mat row0 pairRow edgesW rowI rowJ newE newH stepE stepH)

section
variable {NI NI' H : Nat} {e : Fin NI → Fin 768 → Fin H → EReal} {e' : Fin NI' → Fin 768 → Fin H → EReal}
  {hI : Fin NI → Fin H → EReal} {hI' : Fin NI' → Fin H → EReal} {Wa Wb Wc Wd : Fin H → Fin H → EReal} {ba bb : Fin H → EReal}
  {i : Fin NI} {i' : Fin NI'} {c : Fin H}

/-- newE at (i, j) depends on e through row (i, j) alone and on hI through row i alone. -/
theorem newE_local {hJ : Fin 768 → Fin H → EReal} {j : Fin 768} (he : ∀ k, e i j k = e' i' j k) (hh : ∀ k, hI i k = hI' i' k) :
    newE e hI hJ Wa ba Wb Wc Wd bb i j c = newE e' hI' hJ Wa ba Wb Wc Wd bb i' j c := by
  unfold newE Cert.Spec.hidden Cert.Spec.pair Cert.Spec.mm
  simp only [he, hh]

/-- newH at (i, c) depends on e through node i's rows alone and on hI through entry (i, c) alone. -/
theorem newH_local (he : ∀ j k, e i j k = e' i' j k) (hh : hI i c = hI' i' c) :
    newH e hI Wa ba Wb bb i c = newH e' hI' Wa ba Wb bb i' c := by
  unfold newH
  simp only [he, hh]

end

/-- Pair (n, j) is row 768·n + j of the whole edge array. -/
def flatRow (n j : Fin 768) : Fin 589824 := ⟨n.val * 768 + j.val, by have := n.isLt; have := j.isLt; omega⟩

theorem rowI_flatRow (n j : Fin 768) : rowI (flatRow n j) = n :=
  Fin.ext (by show (n.val * 768 + j.val) / 768 = n.val; have := j.isLt; omega)
theorem rowJ_flatRow (n j : Fin 768) : rowJ (flatRow n j) = j :=
  Fin.ext (by show (n.val * 768 + j.val) % 768 = j.val; have := j.isLt; omega)

theorem stepE_at (E : Arr2 589824 100) (Hn : Arr2 768 100) (Weij : Arr2 100 100) (beij : Fin 100 → EReal)
    (Wi Wj Wde : Arr2 100 100) (bde : Fin 100 → EReal) (n j : Fin 768) (col : Fin 100) :
    stepE E Hn Weij beij Wi Wj Wde bde (ix2 (flatRow n j) col)
      = newE (edgesW E) (mat Hn) (mat Hn) (mat Weij) beij (mat Wi) (mat Wj) (mat Wde) bde n j col := by
  show newE _ _ _ _ _ _ _ _ _ (rowI (flatRow n j)) (rowJ (flatRow n j)) col = _
  rw [rowI_flatRow, rowJ_flatRow]

/-- A two-coordinate index is determined by its coordinates. -/
theorem ix2_ext {n0 n1 : Nat} {y : (⟨2, ![n0, n1]⟩ : Shape).Idx} {a : Fin n0} {b : Fin n1} (h0 : (y 0).val = a.val)
    (h1 : (y 1).val = b.val) : y = ix2 a b :=
  (eq_ix2 y).trans (congrArg₂ ix2 (Fin.ext h0) (Fin.ext h1))

/-- An index of an edge tile is a node pair (i, j) = (row / 768, row % 768) and a column. -/
theorem upd_split_row (y : S6144x100.Idx) : ∃ (i : Fin 8) (j : Fin 768) (col : Fin 100), y = ix2 (pairRow (NI := 8) i j) col := by
  have h := idx2_lt0 y
  exact ⟨⟨(y 0).val / 768, by omega⟩, ⟨(y 0).val % 768, by omega⟩, y 1,
    ix2_ext (by show (y 0).val = (y 0).val / 768 * 768 + (y 0).val % 768; omega) rfl⟩

/-- Row i of tile t, of 96 tiles of 8 nodes, is node 8·t + i. -/
def nodeRow {N : Nat} (hN : N = 96) (t : Fin N) (i : Fin 8) : Fin 768 :=
  ⟨8 * t.val + i.val, by have := t.isLt; have := i.isLt; omega⟩

/-- Every index of the whole edge array is a pair (8·t + i, j) and a column. -/
theorem upd_split_flat {N : Nat} (hN : N = 96) (y : S589824x100.Idx) :
    ∃ (t : Fin N) (i : Fin 8) (j : Fin 768) (col : Fin 100), y = ix2 (flatRow (nodeRow hN t i) j) col := by
  have h := idx2_lt0 y
  exact ⟨⟨(y 0).val / 6144, by omega⟩, ⟨(y 0).val % 6144 / 768, by omega⟩, ⟨(y 0).val % 768, by omega⟩, y 1,
    ix2_ext (by show (y 0).val = (8 * ((y 0).val / 6144) + (y 0).val % 6144 / 768) * 768 + (y 0).val % 768; omega) rfl⟩

/-- Every index of the node table is a row 8·t + i and a column. -/
theorem upd_split_node {N : Nat} (hN : N = 96) (y : S768x100.Idx) :
    ∃ (t : Fin N) (i : Fin 8) (col : Fin 100), y = ix2 (nodeRow hN t i) col := by
  have h := idx2_lt0 y
  exact ⟨⟨(y 0).val / 8, by omega⟩, ⟨(y 0).val % 8, by omega⟩, y 1,
    ix2_ext (by show (y 0).val = 8 * ((y 0).val / 8) + (y 0).val % 8; omega) rfl⟩

theorem upd_hz : (![0, 0] : Fin 2 → Nat) = fun _ => 0 := funext fun a => by fin_cases a <;> rfl

variable {E : Arr2 589824 100} {Hn : Arr2 768 100} {Weij : Arr2 100 100} {Beij : Arr2 1 100}
  {Wi Wj Wde : Arr2 100 100} {Bde : Arr2 1 100} {Wdv1 : Arr2 100 100} {Bdv1 : Arr2 1 100} {Wdv2 : Arr2 100 100} {Bdv2 : Arr2 1 100}
  {x0 : Vec Ideal S6144x100 .f32} {x1 : Vec Ideal S8x100 .f32} {x2 : Vec Ideal S768x100 .f32} {x3 : Vec Ideal S100x100 .f32}
  {x4 : Vec Ideal S1x100 .f32} {x5 x6 x7 : Vec Ideal S100x100 .f32} {x8 : Vec Ideal S1x100 .f32}
  {x9 : Vec Ideal S100x100 .f32} {x10 : Vec Ideal S1x100 .f32} {x11 : Vec Ideal S100x100 .f32} {x12 : Vec Ideal S1x100 .f32}
  {i : Fin 8} {n : Fin 768}

/-- With the two tiled blocks read as the arrays' rows and the others whole, the tile's new edge at (i, j) is the whole-array one at (n, j). -/
theorem upd_edges_tile {j : Fin 768} (col : Fin 100)
    (h0 : ∀ k : Fin 100, x0 (ix2 (pairRow (NI := 8) i j) k) = E (ix2 (flatRow n j) k))
    (h1 : ∀ k : Fin 100, x1 (ix2 i k) = Hn (ix2 n k))
    (h2 : x2 = Hn) (h3 : x3 = Weij) (h4 : x4 = Beij) (h5 : x5 = Wi) (h6 : x6 = Wj) (h7 : x7 = Wde) (h8 : x8 = Bde) :
    edgesNew x0 x3 x4 x1 x2 x5 x6 x7 x8 (ix2 (pairRow (NI := 8) i j) col)
      = stepE E Hn Weij (row0 Beij) Wi Wj Wde (row0 Bde) (ix2 (flatRow n j) col) := by
  subst h2 h3 h4 h5 h6 h7 h8
  rw [edgesNew_apply, stepE_at]
  exact newE_local (fun k => h0 k) (fun k => h1 k)

/-- A node's 768 new edges all lie in its own tile, so the tile's new node row i is the whole-array node update at n. -/
theorem upd_nodes_tile (col : Fin 100)
    (h0 : ∀ (j : Fin 768) (k : Fin 100), x0 (ix2 (pairRow (NI := 8) i j) k) = E (ix2 (flatRow n j) k))
    (h1 : ∀ k : Fin 100, x1 (ix2 i k) = Hn (ix2 n k))
    (h2 : x2 = Hn) (h3 : x3 = Weij) (h4 : x4 = Beij) (h5 : x5 = Wi) (h6 : x6 = Wj) (h7 : x7 = Wde) (h8 : x8 = Bde)
    (h9 : x9 = Wdv1) (h10 : x10 = Bdv1) (h11 : x11 = Wdv2) (h12 : x12 = Bdv2) :
    nodesNew (edgesNew x0 x3 x4 x1 x2 x5 x6 x7 x8) (shapeCast S8x100 x1 shapeCasts_S8x100_S8x100) x9 x10 x11 x12 (ix2 i col)
      = stepH (stepE E Hn Weij (row0 Beij) Wi Wj Wde (row0 Bde)) Hn Wdv1 (row0 Bdv1) Wdv2 (row0 Bdv2) (ix2 n col) := by
  subst h9 h10 h11 h12
  rw [nodesNew_apply, shapeCast_self]
  exact newH_local (fun j k => upd_edges_tile k (h0 j) h1 h2 h3 h4 h5 h6 h7 h8) (h1 col)

end Cert.KernelIdeal.Hand

end
-- ==== Proof.KI.Val1.lean ====
import proofs.«113144_j23983097381472_1_alg».proof.Proof.KI.Body1
import proofs.«113144_j23983097381472_1_alg».proof.Proof.KI.Pay1
import proofs.«113144_j23983097381472_1_alg».proof.Proof.KI.Tile
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Spec (Arr2 row0 pairRow stepE stepH)

variable (V : (c : Dev nD) → (b : Ref sig .tc) → Buf (Elt Ideal) ((c : Thread nD τ).loc b))

/-- The index maps: windows 0, 1, 13 and 14 are at block (t, 0), every other window at block (0, 0). -/
theorem upd_idx1 : ∀ (w : Fin 15) (t : Fin grid1.N) (a : Fin (win1 w).shape.rank),
    (win1 w).index t a = if a.val = 0 ∧ (w.val < 2 ∨ 12 < w.val) then t.val else 0 := by decide +kernel

/-- One update step's edges and nodes of the arrays as the region finds them. -/
abbrev updE1 (c : Dev nD) : Arr2 589824 100 :=
  stepE (V c main_v5) (V c main_v3) (V c main_arg6) (row0 (V c main_v6)) (V c main_arg8) (V c main_arg9) (V c main_arg10) (row0 (V c main_v7))
abbrev updH1 (c : Dev nD) : Arr2 768 100 :=
  stepH (updE1 V c) (V c main_v3) (V c main_arg12) (row0 (V c main_v8)) (V c main_arg14) (row0 (V c main_v9))

/-- Row (i, j) of an edge block at point t is row (8·t + i, j) of its array. -/
theorem upd_out_emb1_13 (t : Fin cfg1.N) (i : Fin 8) (j : Fin 768) (col : Fin 100) :
    ((cfg1.win 13).blk t).view.emb (ix2 (pairRow (NI := 8) i j) col) = (ix2 (flatRow (nodeRow N_1 t i) j) col : S589824x100.Idx) :=
  ix2_ext (by show win1_13.index t (0 : Fin 2) * 6144 + 1 * (i.val * 768 + j.val) = (8 * t.val + i.val) * 768 + j.val
              rw [(upd_idx1 13 t (0 : Fin 2)).trans (if_pos (by decide))]; omega)
    (by show win1_13.index t (1 : Fin 2) * 100 + 1 * col.val = col.val
        rw [(upd_idx1 13 t (1 : Fin 2)).trans (if_neg (by decide))]; omega)

/-- Row i of a node block at point t is row 8·t + i of its array. -/
theorem upd_out_emb1_14 (t : Fin cfg1.N) (i : Fin 8) (col : Fin 100) :
    ((cfg1.win 14).blk t).view.emb (ix2 i col) = (ix2 (nodeRow N_1 t i) col : S768x100.Idx) :=
  ix2_ext (by show win1_14.index t (0 : Fin 2) * 8 + 1 * i.val = 8 * t.val + i.val
              rw [(upd_idx1 14 t (0 : Fin 2)).trans (if_pos (by decide))]; omega)
    (by show win1_14.index t (1 : Fin 2) * 100 + 1 * col.val = col.val
        rw [(upd_idx1 14 t (1 : Fin 2)).trans (if_neg (by decide))]; omega)

/-- A block of windows 2 to 12 sits in its array at its own coordinates. -/
theorem upd_whole1 (w : Fin 15) (t : Fin cfg1.N) (y : ((cfg1.win w).xblock (cfg1.grid.coords t)).Idx) (a : Fin (cfg1.win w).shape.rank)
    (hw : 2 ≤ w.val ∧ w.val ≤ 12 := by decide) : (((cfg1.win w).rect t).emb y a : Nat) = y a :=
  (cfg1.win w).rect_emb_val_of_index_zero t a ((upd_idx1 w t a).trans (if_neg (by omega))) y

/-- So each of those blocks is its array, whole. -/
theorem upd_blk1 (c : Dev nD) (t : Fin cfg1.N) :
    (iblk1 V c 2 t : Vec Ideal S768x100 .f32) = V c main_v3 ∧ (iblk1 V c 3 t : Vec Ideal S100x100 .f32) = V c main_arg6
      ∧ (iblk1 V c 4 t : Vec Ideal S1x100 .f32) = V c main_v6 ∧ (iblk1 V c 5 t : Vec Ideal S100x100 .f32) = V c main_arg8
      ∧ (iblk1 V c 6 t : Vec Ideal S100x100 .f32) = V c main_arg9 ∧ (iblk1 V c 7 t : Vec Ideal S100x100 .f32) = V c main_arg10
      ∧ (iblk1 V c 8 t : Vec Ideal S1x100 .f32) = V c main_v7 ∧ (iblk1 V c 9 t : Vec Ideal S100x100 .f32) = V c main_arg12
      ∧ (iblk1 V c 10 t : Vec Ideal S1x100 .f32) = V c main_v8 ∧ (iblk1 V c 11 t : Vec Ideal S100x100 .f32) = V c main_arg14
      ∧ (iblk1 V c 12 t : Vec Ideal S1x100 .f32) = V c main_v9 :=
  ⟨funext fun y => congrArg (V c main_v3) (funext fun a => Fin.ext (upd_whole1 2 t y a)),
    funext fun y => congrArg (V c main_arg6) (funext fun a => Fin.ext (upd_whole1 3 t y a)),
    funext fun y => congrArg (V c main_v6) (funext fun a => Fin.ext (upd_whole1 4 t y a)),
    funext fun y => congrArg (V c main_arg8) (funext fun a => Fin.ext (upd_whole1 5 t y a)),
    funext fun y => congrArg (V c main_arg9) (funext fun a => Fin.ext (upd_whole1 6 t y a)),
    funext fun y => congrArg (V c main_arg10) (funext fun a => Fin.ext (upd_whole1 7 t y a)),
    funext fun y => congrArg (V c main_v7) (funext fun a => Fin.ext (upd_whole1 8 t y a)),
    funext fun y => congrArg (V c main_arg12) (funext fun a => Fin.ext (upd_whole1 9 t y a)),
    funext fun y => congrArg (V c main_v8) (funext fun a => Fin.ext (upd_whole1 10 t y a)),
    funext fun y => congrArg (V c main_arg14) (funext fun a => Fin.ext (upd_whole1 11 t y a)),
    funext fun y => congrArg (V c main_v9) (funext fun a => Fin.ext (upd_whole1 12 t y a))⟩

/-- Point t's block of the edge result is block t of the whole-array edge update. -/
theorem upd_flushed1_13 (c : Dev nD) (t : Fin cfg1.N) :
    (dat1 (F := Ideal) V c).flushed 13 t = ((cfg1.win 13).blk t).view.read (Elt Ideal) (updE1 V c) := by
  obtain ⟨h2, h3, h4, h5, h6, h7, h8, -⟩ := upd_blk1 V c t
  rw [Dat.flushed, after1_13, out1_13, View.canon_unit_zero upd_hz]
  repeat rw [View.ld_unit_zero upd_hz]
  rw [pay_edges1]
  funext y
  obtain ⟨i, j, col, rfl⟩ := upd_split_row y
  refine (upd_edges_tile col (fun k => congrArg (V c main_v5) (upd_out_emb1_13 t i j k))
    (fun k => congrArg (V c main_v3) (upd_out_emb1_14 t i k)) h2 h3 h4 h5 h6 h7 h8).trans ?_
  exact (congrArg (updE1 V c) (upd_out_emb1_13 t i j col)).symm

/-- Point t's block of the node result is block t of the whole-array node update fed with the edge update. -/
theorem upd_flushed1_14 (c : Dev nD) (t : Fin cfg1.N) :
    (dat1 (F := Ideal) V c).flushed 14 t = ((cfg1.win 14).blk t).view.read (Elt Ideal) (updH1 V c) := by
  obtain ⟨h2, h3, h4, h5, h6, h7, h8, h9, h10, h11, h12⟩ := upd_blk1 V c t
  rw [Dat.flushed, after1_14, out1_14, View.canon_unit_zero upd_hz]
  repeat rw [View.ld_unit_zero upd_hz]
  rw [pay_nodes1]
  funext y
  obtain ⟨i, col, rfl⟩ : ∃ (i : Fin 8) (col : Fin 100), y = ix2 i col := ⟨y 0, y 1, eq_ix2 y⟩
  refine (upd_nodes_tile col (fun j k => congrArg (V c main_v5) (upd_out_emb1_13 t i j k))
    (fun k => congrArg (V c main_v3) (upd_out_emb1_14 t i k)) h2 h3 h4 h5 h6 h7 h8 h9 h10 h11 h12).trans ?_
  exact (congrArg (updH1 V c) (upd_out_emb1_14 t i col)).symm

/-- The 96 edge blocks cover the edge result: row (8·t + i, j) is row (i, j) of block t. -/
theorem upd_cover1_13 (y : S589824x100.Idx) : ∃ t : Fin cfg1.N, (cfg1.win 13).flush t = true ∧ y ∈ ((cfg1.win 13).blk t).view.set := by
  obtain ⟨t, i, j, col, rfl⟩ := upd_split_flat N_1 y
  exact ⟨t, flush1_13 t, by rw [← upd_out_emb1_13 t i j col]; exact View.emb_mem_set _ _⟩

/-- The 96 node blocks cover the node result: row 8·t + i is row i of block t. -/
theorem upd_cover1_14 (y : S768x100.Idx) : ∃ t : Fin cfg1.N, (cfg1.win 14).flush t = true ∧ y ∈ ((cfg1.win 14).blk t).view.set := by
  obtain ⟨t, i, col, rfl⟩ := upd_split_node N_1 y
  exact ⟨t, flush1_14 t, by rw [← upd_out_emb1_14 t i col]; exact View.emb_mem_set _ _⟩

theorem edges1 (c : Dev nD) :
    (dat1 (F := Ideal) V c).arrAt 13 cfg1.N
      = stepE (V c main_v5) (V c main_v3) (V c main_arg6) (row0 (V c main_v6)) (V c main_arg8) (V c main_arg9) (V c main_arg10) (row0 (V c main_v7)) :=
  (dat1 (F := Ideal) V c).arrAt_eq_of_cover 13 (updE1 V c) (fun t _ => upd_flushed1_13 V c t) upd_cover1_13

theorem nodes1 (c : Dev nD) :
    (dat1 (F := Ideal) V c).arrAt 14 cfg1.N
      = stepH ((dat1 (F := Ideal) V c).arrAt 13 cfg1.N) (V c main_v3) (V c main_arg12) (row0 (V c main_v8)) (V c main_arg14) (row0 (V c main_v9)) := by
  rw [edges1 V c]
  exact (dat1 (F := Ideal) V c).arrAt_eq_of_cover 14 (updH1 V c) (fun t _ => upd_flushed1_14 V c t) upd_cover1_14

end Cert.KernelIdeal.Hand

end
-- ==== Proof.KI.Val2.lean ====
import proofs.«113144_j23983097381472_1_alg».proof.Proof.KI.Body2
import proofs.«113144_j23983097381472_1_alg».proof.Proof.KI.Pay1
import proofs.«113144_j23983097381472_1_alg».proof.Proof.KI.Tile
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Spec (Arr2 row0 pairRow stepE stepH)

variable (V : (c : Dev nD) → (b : Ref sig .tc) → Buf (Elt Ideal) ((c : Thread nD τ).loc b))

/-- The index maps: windows 0, 1, 13 and 14 are at block (t, 0), every other window at block (0, 0). -/
theorem upd_idx2 : ∀ (w : Fin 15) (t : Fin grid2.N) (a : Fin (win2 w).shape.rank),
    (win2 w).index t a = if a.val = 0 ∧ (w.val < 2 ∨ 12 < w.val) then t.val else 0 := by decide +kernel

/-- One update step's edges and nodes of the arrays as the region finds them. -/
abbrev updE2 (c : Dev nD) : Arr2 589824 100 :=
  stepE (V c main_v10_0) (V c main_v10_1) (V c main_arg6) (row0 (V c main_v11)) (V c main_arg8) (V c main_arg9) (V c main_arg10) (row0 (V c main_v12))
abbrev updH2 (c : Dev nD) : Arr2 768 100 :=
  stepH (updE2 V c) (V c main_v10_1) (V c main_arg12) (row0 (V c main_v13)) (V c main_arg14) (row0 (V c main_v14))

/-- Row (i, j) of an edge block at point t is row (8·t + i, j) of its array. -/
theorem upd_out_emb2_13 (t : Fin cfg2.N) (i : Fin 8) (j : Fin 768) (col : Fin 100) :
    ((cfg2.win 13).blk t).view.emb (ix2 (pairRow (NI := 8) i j) col) = (ix2 (flatRow (nodeRow N_2 t i) j) col : S589824x100.Idx) :=
  ix2_ext (by show win2_13.index t (0 : Fin 2) * 6144 + 1 * (i.val * 768 + j.val) = (8 * t.val + i.val) * 768 + j.val
              rw [(upd_idx2 13 t (0 : Fin 2)).trans (if_pos (by decide))]; omega)
    (by show win2_13.index t (1 : Fin 2) * 100 + 1 * col.val = col.val
        rw [(upd_idx2 13 t (1 : Fin 2)).trans (if_neg (by decide))]; omega)

/-- Row i of a node block at point t is row 8·t + i of its array. -/
theorem upd_out_emb2_14 (t : Fin cfg2.N) (i : Fin 8) (col : Fin 100) :
    ((cfg2.win 14).blk t).view.emb (ix2 i col) = (ix2 (nodeRow N_2 t i) col : S768x100.Idx) :=
  ix2_ext (by show win2_14.index t (0 : Fin 2) * 8 + 1 * i.val = 8 * t.val + i.val
              rw [(upd_idx2 14 t (0 : Fin 2)).trans (if_pos (by decide))]; omega)
    (by show win2_14.index t (1 : Fin 2) * 100 + 1 * col.val = col.val
        rw [(upd_idx2 14 t (1 : Fin 2)).trans (if_neg (by decide))]; omega)

/-- A block of windows 2 to 12 sits in its array at its own coordinates. -/
theorem upd_whole2 (w : Fin 15) (t : Fin cfg2.N) (y : ((cfg2.win w).xblock (cfg2.grid.coords t)).Idx) (a : Fin (cfg2.win w).shape.rank)
    (hw : 2 ≤ w.val ∧ w.val ≤ 12 := by decide) : (((cfg2.win w).rect t).emb y a : Nat) = y a :=
  (cfg2.win w).rect_emb_val_of_index_zero t a ((upd_idx2 w t a).trans (if_neg (by omega))) y

/-- So each of those blocks is its array, whole. -/
theorem upd_blk2 (c : Dev nD) (t : Fin cfg2.N) :
    (iblk2 V c 2 t : Vec Ideal S768x100 .f32) = V c main_v10_1 ∧ (iblk2 V c 3 t : Vec Ideal S100x100 .f32) = V c main_arg6
      ∧ (iblk2 V c 4 t : Vec Ideal S1x100 .f32) = V c main_v11 ∧ (iblk2 V c 5 t : Vec Ideal S100x100 .f32) = V c main_arg8
      ∧ (iblk2 V c 6 t : Vec Ideal S100x100 .f32) = V c main_arg9 ∧ (iblk2 V c 7 t : Vec Ideal S100x100 .f32) = V c main_arg10
      ∧ (iblk2 V c 8 t : Vec Ideal S1x100 .f32) = V c main_v12 ∧ (iblk2 V c 9 t : Vec Ideal S100x100 .f32) = V c main_arg12
      ∧ (iblk2 V c 10 t : Vec Ideal S1x100 .f32) = V c main_v13 ∧ (iblk2 V c 11 t : Vec Ideal S100x100 .f32) = V c main_arg14
      ∧ (iblk2 V c 12 t : Vec Ideal S1x100 .f32) = V c main_v14 :=
  ⟨funext fun y => congrArg (V c main_v10_1) (funext fun a => Fin.ext (upd_whole2 2 t y a)),
    funext fun y => congrArg (V c main_arg6) (funext fun a => Fin.ext (upd_whole2 3 t y a)),
    funext fun y => congrArg (V c main_v11) (funext fun a => Fin.ext (upd_whole2 4 t y a)),
    funext fun y => congrArg (V c main_arg8) (funext fun a => Fin.ext (upd_whole2 5 t y a)),
    funext fun y => congrArg (V c main_arg9) (funext fun a => Fin.ext (upd_whole2 6 t y a)),
    funext fun y => congrArg (V c main_arg10) (funext fun a => Fin.ext (upd_whole2 7 t y a)),
    funext fun y => congrArg (V c main_v12) (funext fun a => Fin.ext (upd_whole2 8 t y a)),
    funext fun y => congrArg (V c main_arg12) (funext fun a => Fin.ext (upd_whole2 9 t y a)),
    funext fun y => congrArg (V c main_v13) (funext fun a => Fin.ext (upd_whole2 10 t y a)),
    funext fun y => congrArg (V c main_arg14) (funext fun a => Fin.ext (upd_whole2 11 t y a)),
    funext fun y => congrArg (V c main_v14) (funext fun a => Fin.ext (upd_whole2 12 t y a))⟩

/-- Point t's block of the edge result is block t of the whole-array edge update. -/
theorem upd_flushed2_13 (c : Dev nD) (t : Fin cfg2.N) :
    (dat2 (F := Ideal) V c).flushed 13 t = ((cfg2.win 13).blk t).view.read (Elt Ideal) (updE2 V c) := by
  obtain ⟨h2, h3, h4, h5, h6, h7, h8, -⟩ := upd_blk2 V c t
  rw [Dat.flushed, after2_13, out1_13, View.canon_unit_zero upd_hz]
  repeat rw [View.ld_unit_zero upd_hz]
  rw [pay_edges1]
  funext y
  obtain ⟨i, j, col, rfl⟩ := upd_split_row y
  refine (upd_edges_tile col (fun k => congrArg (V c main_v10_0) (upd_out_emb2_13 t i j k))
    (fun k => congrArg (V c main_v10_1) (upd_out_emb2_14 t i k)) h2 h3 h4 h5 h6 h7 h8).trans ?_
  exact (congrArg (updE2 V c) (upd_out_emb2_13 t i j col)).symm

/-- Point t's block of the node result is block t of the whole-array node update fed with the edge update. -/
theorem upd_flushed2_14 (c : Dev nD) (t : Fin cfg2.N) :
    (dat2 (F := Ideal) V c).flushed 14 t = ((cfg2.win 14).blk t).view.read (Elt Ideal) (updH2 V c) := by
  obtain ⟨h2, h3, h4, h5, h6, h7, h8, h9, h10, h11, h12⟩ := upd_blk2 V c t
  rw [Dat.flushed, after2_14, out1_14, View.canon_unit_zero upd_hz]
  repeat rw [View.ld_unit_zero upd_hz]
  rw [pay_nodes1]
  funext y
  obtain ⟨i, col, rfl⟩ : ∃ (i : Fin 8) (col : Fin 100), y = ix2 i col := ⟨y 0, y 1, eq_ix2 y⟩
  refine (upd_nodes_tile col (fun j k => congrArg (V c main_v10_0) (upd_out_emb2_13 t i j k))
    (fun k => congrArg (V c main_v10_1) (upd_out_emb2_14 t i k)) h2 h3 h4 h5 h6 h7 h8 h9 h10 h11 h12).trans ?_
  exact (congrArg (updH2 V c) (upd_out_emb2_14 t i col)).symm

/-- The 96 edge blocks cover the edge result: row (8·t + i, j) is row (i, j) of block t. -/
theorem upd_cover2_13 (y : S589824x100.Idx) : ∃ t : Fin cfg2.N, (cfg2.win 13).flush t = true ∧ y ∈ ((cfg2.win 13).blk t).view.set := by
  obtain ⟨t, i, j, col, rfl⟩ := upd_split_flat N_2 y
  exact ⟨t, flush2_13 t, by rw [← upd_out_emb2_13 t i j col]; exact View.emb_mem_set _ _⟩

/-- The 96 node blocks cover the node result: row 8·t + i is row i of block t. -/
theorem upd_cover2_14 (y : S768x100.Idx) : ∃ t : Fin cfg2.N, (cfg2.win 14).flush t = true ∧ y ∈ ((cfg2.win 14).blk t).view.set := by
  obtain ⟨t, i, col, rfl⟩ := upd_split_node N_2 y
  exact ⟨t, flush2_14 t, by rw [← upd_out_emb2_14 t i col]; exact View.emb_mem_set _ _⟩

theorem edges2 (c : Dev nD) :
    (dat2 (F := Ideal) V c).arrAt 13 cfg2.N
      = stepE (V c main_v10_0) (V c main_v10_1) (V c main_arg6) (row0 (V c main_v11)) (V c main_arg8) (V c main_arg9) (V c main_arg10) (row0 (V c main_v12)) :=
  (dat2 (F := Ideal) V c).arrAt_eq_of_cover 13 (updE2 V c) (fun t _ => upd_flushed2_13 V c t) upd_cover2_13

theorem nodes2 (c : Dev nD) :
    (dat2 (F := Ideal) V c).arrAt 14 cfg2.N
      = stepH ((dat2 (F := Ideal) V c).arrAt 13 cfg2.N) (V c main_v10_1) (V c main_arg12) (row0 (V c main_v13)) (V c main_arg14) (row0 (V c main_v14)) := by
  rw [edges2 V c]
  exact (dat2 (F := Ideal) V c).arrAt_eq_of_cover 14 (updH2 V c) (fun t _ => upd_flushed2_14 V c t) upd_cover2_14

end Cert.KernelIdeal.Hand

end
-- ==== Proof.KI.Val3.lean ====
import proofs.«113144_j23983097381472_1_alg».proof.Proof.KI.Body3
import proofs.«113144_j23983097381472_1_alg».proof.Proof.KI.Pay1
import proofs.«113144_j23983097381472_1_alg».proof.Proof.KI.Tile
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.Spec (Arr2 row0 pairRow stepE stepH)

variable (V : (c : Dev nD) → (b : Ref sig .tc) → Buf (Elt Ideal) ((c : Thread nD τ).loc b))

/-- The index maps: windows 0, 1, 13 and 14 are at block (t, 0), every other window at block (0, 0). -/
theorem upd_idx3 : ∀ (w : Fin 15) (t : Fin grid3.N) (a : Fin (win3 w).shape.rank),
    (win3 w).index t a = if a.val = 0 ∧ (w.val < 2 ∨ 12 < w.val) then t.val else 0 := by decide +kernel

/-- One update step's edges and nodes of the arrays as the region finds them. -/
abbrev updE3 (c : Dev nD) : Arr2 589824 100 :=
  stepE (V c main_v15_0) (V c main_v15_1) (V c main_arg6) (row0 (V c main_v16)) (V c main_arg8) (V c main_arg9) (V c main_arg10) (row0 (V c main_v17))
abbrev updH3 (c : Dev nD) : Arr2 768 100 :=
  stepH (updE3 V c) (V c main_v15_1) (V c main_arg12) (row0 (V c main_v18)) (V c main_arg14) (row0 (V c main_v19))

/-- Row (i, j) of an edge block at point t is row (8·t + i, j) of its array. -/
theorem upd_out_emb3_13 (t : Fin cfg3.N) (i : Fin 8) (j : Fin 768) (col : Fin 100) :
    ((cfg3.win 13).blk t).view.emb (ix2 (pairRow (NI := 8) i j) col) = (ix2 (flatRow (nodeRow N_3 t i) j) col : S589824x100.Idx) :=
  ix2_ext (by show win3_13.index t (0 : Fin 2) * 6144 + 1 * (i.val * 768 + j.val) = (8 * t.val + i.val) * 768 + j.val
              rw [(upd_idx3 13 t (0 : Fin 2)).trans (if_pos (by decide))]; omega)
    (by show win3_13.index t (1 : Fin 2) * 100 + 1 * col.val = col.val
        rw [(upd_idx3 13 t (1 : Fin 2)).trans (if_neg (by decide))]; omega)

/-- Row i of a node block at point t is row 8·t + i of its array. -/
theorem upd_out_emb3_14 (t : Fin cfg3.N) (i : Fin 8) (col : Fin 100) :
    ((cfg3.win 14).blk t).view.emb (ix2 i col) = (ix2 (nodeRow N_3 t i) col : S768x100.Idx) :=
  ix2_ext (by show win3_14.index t (0 : Fin 2) * 8 + 1 * i.val = 8 * t.val + i.val
              rw [(upd_idx3 14 t (0 : Fin 2)).trans (if_pos (by decide))]; omega)
    (by show win3_14.index t (1 : Fin 2) * 100 + 1 * col.val = col.val
        rw [(upd_idx3 14 t (1 : Fin 2)).trans (if_neg (by decide))]; omega)

/-- A block of windows 2 to 12 sits in its array at its own coordinates. -/
theorem upd_whole3 (w : Fin 15) (t : Fin cfg3.N) (y : ((cfg3.win w).xblock (cfg3.grid.coords t)).Idx) (a : Fin (cfg3.win w).shape.rank)
    (hw : 2 ≤ w.val ∧ w.val ≤ 12 := by decide) : (((cfg3.win w).rect t).emb y a : Nat) = y a :=
  (cfg3.win w).rect_emb_val_of_index_zero t a ((upd_idx3 w t a).trans (if_neg (by omega))) y

/-- So each of those blocks is its array, whole. -/
theorem upd_blk3 (c : Dev nD) (t : Fin cfg3.N) :
    (iblk3 V c 2 t : Vec Ideal S768x100 .f32) = V c main_v15_1 ∧ (iblk3 V c 3 t : Vec Ideal S100x100 .f32) = V c main_arg6
      ∧ (iblk3 V c 4 t : Vec Ideal S1x100 .f32) = V c main_v16 ∧ (iblk3 V c 5 t : Vec Ideal S100x100 .f32) = V c main_arg8
      ∧ (iblk3 V c 6 t : Vec Ideal S100x100 .f32) = V c main_arg9 ∧ (iblk3 V c 7 t : Vec Ideal S100x100 .f32) = V c main_arg10
      ∧ (iblk3 V c 8 t : Vec Ideal S1x100 .f32) = V c main_v17 ∧ (iblk3 V c 9 t : Vec Ideal S100x100 .f32) = V c main_arg12
      ∧ (iblk3 V c 10 t : Vec Ideal S1x100 .f32) = V c main_v18 ∧ (iblk3 V c 11 t : Vec Ideal S100x100 .f32) = V c main_arg14
      ∧ (iblk3 V c 12 t : Vec Ideal S1x100 .f32) = V c main_v19 :=
  ⟨funext fun y => congrArg (V c main_v15_1) (funext fun a => Fin.ext (upd_whole3 2 t y a)),
    funext fun y => congrArg (V c main_arg6) (funext fun a => Fin.ext (upd_whole3 3 t y a)),
    funext fun y => congrArg (V c main_v16) (funext fun a => Fin.ext (upd_whole3 4 t y a)),
    funext fun y => congrArg (V c main_arg8) (funext fun a => Fin.ext (upd_whole3 5 t y a)),
    funext fun y => congrArg (V c main_arg9) (funext fun a => Fin.ext (upd_whole3 6 t y a)),
    funext fun y => congrArg (V c main_arg10) (funext fun a => Fin.ext (upd_whole3 7 t y a)),
    funext fun y => congrArg (V c main_v17) (funext fun a => Fin.ext (upd_whole3 8 t y a)),
    funext fun y => congrArg (V c main_arg12) (funext fun a => Fin.ext (upd_whole3 9 t y a)),
    funext fun y => congrArg (V c main_v18) (funext fun a => Fin.ext (upd_whole3 10 t y a)),
    funext fun y => congrArg (V c main_arg14) (funext fun a => Fin.ext (upd_whole3 11 t y a)),
    funext fun y => congrArg (V c main_v19) (funext fun a => Fin.ext (upd_whole3 12 t y a))⟩

/-- Point t's block of the edge result is block t of the whole-array edge update. -/
theorem upd_flushed3_13 (c : Dev nD) (t : Fin cfg3.N) :
    (dat3 (F := Ideal) V c).flushed 13 t = ((cfg3.win 13).blk t).view.read (Elt Ideal) (updE3 V c) := by
  obtain ⟨h2, h3, h4, h5, h6, h7, h8, -⟩ := upd_blk3 V c t
  rw [Dat.flushed, after3_13, out1_13, View.canon_unit_zero upd_hz]
  repeat rw [View.ld_unit_zero upd_hz]
  rw [pay_edges1]
  funext y
  obtain ⟨i, j, col, rfl⟩ := upd_split_row y
  refine (upd_edges_tile col (fun k => congrArg (V c main_v15_0) (upd_out_emb3_13 t i j k))
    (fun k => congrArg (V c main_v15_1) (upd_out_emb3_14 t i k)) h2 h3 h4 h5 h6 h7 h8).trans ?_
  exact (congrArg (updE3 V c) (upd_out_emb3_13 t i j col)).symm

/-- Point t's block of the node result is block t of the whole-array node update fed with the edge update. -/
theorem upd_flushed3_14 (c : Dev nD) (t : Fin cfg3.N) :
    (dat3 (F := Ideal) V c).flushed 14 t = ((cfg3.win 14).blk t).view.read (Elt Ideal) (updH3 V c) := by
  obtain ⟨h2, h3, h4, h5, h6, h7, h8, h9, h10, h11, h12⟩ := upd_blk3 V c t
  rw [Dat.flushed, after3_14, out1_14, View.canon_unit_zero upd_hz]
  repeat rw [View.ld_unit_zero upd_hz]
  rw [pay_nodes1]
  funext y
  obtain ⟨i, col, rfl⟩ : ∃ (i : Fin 8) (col : Fin 100), y = ix2 i col := ⟨y 0, y 1, eq_ix2 y⟩
  refine (upd_nodes_tile col (fun j k => congrArg (V c main_v15_0) (upd_out_emb3_13 t i j k))
    (fun k => congrArg (V c main_v15_1) (upd_out_emb3_14 t i k)) h2 h3 h4 h5 h6 h7 h8 h9 h10 h11 h12).trans ?_
  exact (congrArg (updH3 V c) (upd_out_emb3_14 t i col)).symm

/-- The 96 edge blocks cover the edge result: row (8·t + i, j) is row (i, j) of block t. -/
theorem upd_cover3_13 (y : S589824x100.Idx) : ∃ t : Fin cfg3.N, (cfg3.win 13).flush t = true ∧ y ∈ ((cfg3.win 13).blk t).view.set := by
  obtain ⟨t, i, j, col, rfl⟩ := upd_split_flat N_3 y
  exact ⟨t, flush3_13 t, by rw [← upd_out_emb3_13 t i j col]; exact View.emb_mem_set _ _⟩

/-- The 96 node blocks cover the node result: row 8·t + i is row i of block t. -/
theorem upd_cover3_14 (y : S768x100.Idx) : ∃ t : Fin cfg3.N, (cfg3.win 14).flush t = true ∧ y ∈ ((cfg3.win 14).blk t).view.set := by
  obtain ⟨t, i, col, rfl⟩ := upd_split_node N_3 y
  exact ⟨t, flush3_14 t, by rw [← upd_out_emb3_14 t i col]; exact View.emb_mem_set _ _⟩

theorem edges3 (c : Dev nD) :
    (dat3 (F := Ideal) V c).arrAt 13 cfg3.N
      = stepE (V c main_v15_0) (V c main_v15_1) (V c main_arg6) (row0 (V c main_v16)) (V c main_arg8) (V c main_arg9) (V c main_arg10) (row0 (V c main_v17)) :=
  (dat3 (F := Ideal) V c).arrAt_eq_of_cover 13 (updE3 V c) (fun t _ => upd_flushed3_13 V c t) upd_cover3_13

theorem nodes3 (c : Dev nD) :
    (dat3 (F := Ideal) V c).arrAt 14 cfg3.N
      = stepH ((dat3 (F := Ideal) V c).arrAt 13 cfg3.N) (V c main_v15_1) (V c main_arg12) (row0 (V c main_v18)) (V c main_arg14) (row0 (V c main_v19)) := by
  rw [edges3 V c]
  exact (dat3 (F := Ideal) V c).arrAt_eq_of_cover 14 (updH3 V c) (fun t _ => upd_flushed3_14 V c t) upd_cover3_14

end Cert.KernelIdeal.Hand

end
-- ==== Proof.KI.Chain.lean ====
import proofs.«113144_j23983097381472_1_alg».proof.Proof.Spec
import proofs.«113144_j23983097381472_1_alg».proof.Proof.KI.Stages
import proofs.«113144_j23983097381472_1_alg».proof.Proof.KI.Val0
import proofs.«113144_j23983097381472_1_alg».proof.Proof.KI.Val1
import proofs.«113144_j23983097381472_1_alg».proof.Proof.KI.Val2
import proofs.«113144_j23983097381472_1_alg».proof.Proof.KI.Val3
import proofs.«113144_j23983097381472_1_alg».proof.Proof.KI.Host

noncomputable section

namespace Cert.KernelIdeal.Hand

open Cert.KernelIdeal Cert.KernelIdeal.Gen
open Idealize.ShloMosaic Idealize.ShloMosaic.TcCoe Idealize.SL.Sem
open Cert.Spec (Arr2 Arr1 encE encH stepE stepH step weightsOf final vec row0 Weights)
theorem encE_congr {x x' W W' b b'} (hx : x = x') (hW : W = W') (hb : b = b') : encE x W b = encE x' W' b' := by
  subst_vars; rfl

-- One region's two results, from a pair and weights equal to the specification's, are the specification's step.
theorem step_eq {s : Arr2 589824 100 × Arr2 768 100} {p : Weights} {E e H h w6 b7 w8 w9 w10 b11 w12 b13 w14 b15}
    (hE : E = stepE e h w6 b7 w8 w9 w10 b11) (hH : H = stepH E h w12 b13 w14 b15) (he : e = s.1) (hh : h = s.2)
    (h6 : w6 = p.Weij) (h7 : b7 = p.beij) (h8 : w8 = p.Wi) (h9 : w9 = p.Wj) (h10 : w10 = p.Wde) (h11 : b11 = p.bde)
    (h12 : w12 = p.Wdv1) (h13 : b13 = p.bdv1) (h14 : w14 = p.Wdv2) (h15 : b15 = p.bdv2) : (E, H) = step p s := by
  subst_vars; rfl

theorem upd_ne {W : Valuation τ sig (Elt Ideal)} {r v : Ref sig .tc} (h : r ≠ v) (y) :
    Function.update W (Proc.devRef .tc v) y (Proc.devRef .tc r) = W (Proc.devRef .tc r) :=
  Function.update_of_ne (StableHlo.devRef_ne_of_ne h) _ _

variable (m : (ℓ : Loc nD τ sig) → Buf (Elt Ideal) ℓ) (c : Dev nD)

theorem C1_of (r : Ref sig .tc) (h : r ∉ Gen.hostOps0_W) : C1 m c r = m ((c : Thread nD τ).loc r) :=
  (Gen.V1_of m c r h).trans rfl
theorem C2_of (r : Ref sig .tc) (h : r ∉ ([main_v5] : List (Ref sig .tc))) : C2 m c r = C1 m c r := by
  unfold C2; exact upd_ne (List.ne_of_not_mem_cons h) _
theorem C3_of (r : Ref sig .tc) (h : r ∉ Gen.hostOps1_W) : C3 m c r = C2 m c r :=
  StableHlo.after_of_writes_sub hostOps1 _ Gen.hostOps1_writes h
theorem C4_of (r : Ref sig .tc) (h : r ∉ ([main_v10_0, main_v10_1] : List (Ref sig .tc))) : C4 m c r = C3 m c r := by
  unfold C4; exact (upd_ne (List.ne_of_not_mem_cons (List.not_mem_of_not_mem_cons h)) _).trans (upd_ne (List.ne_of_not_mem_cons h) _)
theorem C5_of (r : Ref sig .tc) (h : r ∉ Gen.hostOps2_W) : C5 m c r = C4 m c r :=
  StableHlo.after_of_writes_sub hostOps2 _ Gen.hostOps2_writes h
theorem C6_of (r : Ref sig .tc) (h : r ∉ ([main_v15_0, main_v15_1] : List (Ref sig .tc))) : C6 m c r = C5 m c r := by
  unfold C6; exact (upd_ne (List.ne_of_not_mem_cons (List.not_mem_of_not_mem_cons h)) _).trans (upd_ne (List.ne_of_not_mem_cons h) _)
theorem C7_of (r : Ref sig .tc) (h : r ∉ Gen.hostOps3_W) : C7 m c r = C6 m c r :=
  StableHlo.after_of_writes_sub hostOps3 _ Gen.hostOps3_writes h

set_option quotPrecheck false in
local notation "X[" r "]" => m ((c : Thread nD τ).loc r)

-- The update step's ten weight arguments: no item of the entry function writes any of them.
abbrev stepArgs : List (Ref sig .tc) :=
  [main_arg6, main_arg7, main_arg8, main_arg9, main_arg10, main_arg11, main_arg12, main_arg13, main_arg14, main_arg15]

theorem stepArgs_nw : ∀ r ∈ stepArgs, r ∉ Gen.hostOps0_W ∧ r ∉ ([main_v5] : List (Ref sig .tc)) ∧ r ∉ Gen.hostOps1_W ∧ r ∉ ([main_v10_0, main_v10_1] : List (Ref sig .tc))
    ∧ r ∉ Gen.hostOps2_W ∧ r ∉ ([main_v15_0, main_v15_1] : List (Ref sig .tc)) ∧ r ∉ Gen.hostOps3_W := by decide

theorem C1_arg (r : Ref sig .tc) (h : r ∈ stepArgs) : C1 m c r = X[r] := C1_of m c r (stepArgs_nw r h).1
theorem C2_arg (r : Ref sig .tc) (h : r ∈ stepArgs) : C2 m c r = X[r] := (C2_of m c r (stepArgs_nw r h).2.1).trans (C1_arg m c r h)
theorem C3_arg (r : Ref sig .tc) (h : r ∈ stepArgs) : C3 m c r = X[r] := (C3_of m c r (stepArgs_nw r h).2.2.1).trans (C2_arg m c r h)
theorem C4_arg (r : Ref sig .tc) (h : r ∈ stepArgs) : C4 m c r = X[r] := (C4_of m c r (stepArgs_nw r h).2.2.2.1).trans (C3_arg m c r h)
theorem C5_arg (r : Ref sig .tc) (h : r ∈ stepArgs) : C5 m c r = X[r] := (C5_of m c r (stepArgs_nw r h).2.2.2.2.1).trans (C4_arg m c r h)
theorem C6_arg (r : Ref sig .tc) (h : r ∈ stepArgs) : C6 m c r = X[r] := (C6_of m c r (stepArgs_nw r h).2.2.2.2.2.1).trans (C5_arg m c r h)
theorem C7_arg (r : Ref sig .tc) (h : r ∈ stepArgs) : C7 m c r = X[r] := (C7_of m c r (stepArgs_nw r h).2.2.2.2.2.2).trans (C6_arg m c r h)

def specW : Weights := weightsOf X[main_arg6] X[main_arg7] X[main_arg8] X[main_arg9] X[main_arg10] X[main_arg11] X[main_arg12] X[main_arg13] X[main_arg14] X[main_arg15]

-- The specification's pair (edges, nodes) after k steps, at the arguments as launched.
def specAt : Nat → Arr2 589824 100 × Arr2 768 100
  | 0 => (encE X[main_arg1] X[main_arg4] (vec X[main_arg5]), encH X[main_arg0] X[main_arg2] (vec X[main_arg3]))
  | k + 1 => step (specW m c) (specAt k)

theorem chain0_e : (C3 m c main_v5 : Arr2 589824 100) = (specAt m c 0).1 :=
  ((C3_of m c main_v5 (by decide)).trans (C2_v5 m c)).trans ((edges0 (atRefs (C1 m)) c).trans
    (encE_congr (C1_of m c main_arg1 (by decide)) (C1_of m c main_arg4 (by decide)) (host0_bias (Gen.V0 m c))))
theorem chain0_h : (C3 m c main_v3 : Arr2 768 100) = (specAt m c 0).2 :=
  ((C3_of m c main_v3 (by decide)).trans (C2_of m c main_v3 (by decide))).trans (host0_nodes (Gen.V0 m c))

theorem chain1 : ((arr1e m c : Arr2 589824 100), (arr1h m c : Arr2 768 100)) = specAt m c 1 :=
  step_eq (edges1 (atRefs (C3 m)) c) (nodes1 (atRefs (C3 m)) c) (chain0_e m c) (chain0_h m c)
    (C3_arg m c main_arg6 (by decide)) (row0_cast (by show StableHlo.after _ _ _ = _; after_results; rfl) (C2_arg m c main_arg7 (by decide))) (C3_arg m c main_arg8 (by decide)) (C3_arg m c main_arg9 (by decide)) (C3_arg m c main_arg10 (by decide)) (row0_cast (by show StableHlo.after _ _ _ = _; after_results; rfl) (C2_arg m c main_arg11 (by decide)))
    (C3_arg m c main_arg12 (by decide)) (row0_cast (by show StableHlo.after _ _ _ = _; after_results; rfl) (C2_arg m c main_arg13 (by decide))) (C3_arg m c main_arg14 (by decide)) (row0_cast (by show StableHlo.after _ _ _ = _; after_results; rfl) (C2_arg m c main_arg15 (by decide)))

theorem chain2 : ((arr2e m c : Arr2 589824 100), (arr2h m c : Arr2 768 100)) = specAt m c 2 :=
  step_eq (edges2 (atRefs (C5 m)) c) (nodes2 (atRefs (C5 m)) c) (((C5_of m c main_v10_0 (by decide)).trans (C4_e m c)).trans (congrArg Prod.fst (chain1 m c))) (((C5_of m c main_v10_1 (by decide)).trans (C4_h m c)).trans (congrArg Prod.snd (chain1 m c)))
    (C5_arg m c main_arg6 (by decide)) (row0_cast (by show StableHlo.after _ _ _ = _; after_results; rfl) (C4_arg m c main_arg7 (by decide))) (C5_arg m c main_arg8 (by decide)) (C5_arg m c main_arg9 (by decide)) (C5_arg m c main_arg10 (by decide)) (row0_cast (by show StableHlo.after _ _ _ = _; after_results; rfl) (C4_arg m c main_arg11 (by decide)))
    (C5_arg m c main_arg12 (by decide)) (row0_cast (by show StableHlo.after _ _ _ = _; after_results; rfl) (C4_arg m c main_arg13 (by decide))) (C5_arg m c main_arg14 (by decide)) (row0_cast (by show StableHlo.after _ _ _ = _; after_results; rfl) (C4_arg m c main_arg15 (by decide)))

theorem chain3 : ((arr3e m c : Arr2 589824 100), (arr3h m c : Arr2 768 100)) = specAt m c 3 :=
  step_eq (edges3 (atRefs (C7 m)) c) (nodes3 (atRefs (C7 m)) c) (((C7_of m c main_v15_0 (by decide)).trans (C6_e m c)).trans (congrArg Prod.fst (chain2 m c))) (((C7_of m c main_v15_1 (by decide)).trans (C6_h m c)).trans (congrArg Prod.snd (chain2 m c)))
    (C7_arg m c main_arg6 (by decide)) (row0_cast (by show StableHlo.after _ _ _ = _; after_results; rfl) (C6_arg m c main_arg7 (by decide))) (C7_arg m c main_arg8 (by decide)) (C7_arg m c main_arg9 (by decide)) (C7_arg m c main_arg10 (by decide)) (row0_cast (by show StableHlo.after _ _ _ = _; after_results; rfl) (C6_arg m c main_arg11 (by decide)))
    (C7_arg m c main_arg12 (by decide)) (row0_cast (by show StableHlo.after _ _ _ = _; after_results; rfl) (C6_arg m c main_arg13 (by decide))) (C7_arg m c main_arg14 (by decide)) (row0_cast (by show StableHlo.after _ _ _ = _; after_results; rfl) (C6_arg m c main_arg15 (by decide)))

theorem edges_final : (arr3e m c : Arr2 589824 100)
    = (final X[main_arg0] X[main_arg1] X[main_arg2] X[main_arg3] X[main_arg4] X[main_arg5] X[main_arg6] X[main_arg7] X[main_arg8] X[main_arg9] X[main_arg10] X[main_arg11] X[main_arg12] X[main_arg13] X[main_arg14] X[main_arg15]).1 :=
  congrArg Prod.fst (chain3 m c)

theorem nodes_final : (arr3h m c : Arr2 768 100)
    = (final X[main_arg0] X[main_arg1] X[main_arg2] X[main_arg3] X[main_arg4] X[main_arg5] X[main_arg6] X[main_arg7] X[main_arg8] X[main_arg9] X[main_arg10] X[main_arg11] X[main_arg12] X[main_arg13] X[main_arg14] X[main_arg15]).2 :=
  congrArg Prod.snd (chain3 m c)

end Cert.KernelIdeal.Hand

end
-- ==== Proof.RefRunH.lean ====
import proofs.«113144_j23983097381472_1_alg».proof.Proof.Spec
import proofs.«113144_j23983097381472_1_alg».proof.Proof.Gen.ReferenceIdeal
import Idealize.ShloMosaic.Lib.StableHlo.Run
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.RefRunH

open Cert.ReferenceIdeal Cert.ReferenceIdeal.Gen Idealize.ShloMosaic Idealize.ShloMosaic.TcCoe Idealize.SL.Sem Idealize.ShloMosaic.StableHlo Idealize.ShloMosaic.ValueIdx

section Iter
variable {F : FTy → Type} [FloatOps F]

-- A dense layer `x · W + b` over `M` rows of `K` features.
def lin {M K : Nat} (hb : S1x100.BroadcastsInDim ⟨2, ![M, 100]⟩ (![0, 1] : Fin 2 → Fin 2)) (x : FVec F ⟨2, ![M, K]⟩ .f32) (W : FVec F ⟨2, ![K, 100]⟩ .f32)
    (b : FVec F S100 .f32) : FVec F ⟨2, ![M, 100]⟩ .f32 :=
  addf (Host.dotGeneral (DotDims.plain M K 100) none x W) (broadcastInDim ⟨2, ![M, 100]⟩ ![0, 1] hb (broadcastInDim S1x100 ![1] bcast_S100_S1x100_1 b))

-- The inner products of the node pairs' projections, one per edge row, spread over the row's features.
def pairB (h : FVec F S768x100 .f32) (Wi Wj : FVec F S100x100 .f32) : FVec F S589824x100 .f32 :=
  broadcastInDim S589824x100 ![0, 1] bcast_S589824x1_S589824x100_0_1
    (shapeCast S589824x1
      (Host.dotGeneral (DotDims.plain 768 100 768) none (Host.dotGeneral (DotDims.plain 768 100 100) none h Wi)
        (transpose S100x768 [1, 0] (Host.dotGeneral (DotDims.plain 768 100 100) none h Wj) transposes_S768x100_S100x768_1_0))
      shapeCasts_S768x768_S589824x1)

def zeroE : FVec F S589824x100 .f32 := broadcastInDim S589824x100 ![] bcast_S_S589824x100 (constant S_ .f32 0x00000000#32)

def iterE (e : FVec F S589824x100 .f32) (h : FVec F S768x100 .f32) (W6 : FVec F S100x100 .f32) (b7 : FVec F S100 .f32) (W8 W9 W10 : FVec F S100x100 .f32) (b11 : FVec F S100 .f32) : FVec F S589824x100 .f32 :=
  addf e (lin bcast_S1x100_S589824x100_0_1 (maximumf (addf (lin bcast_S1x100_S589824x100_0_1 e W6 b7) (pairB h W8 W9)) zeroE) W10 b11)

def iterH (e' : FVec F S589824x100 .f32) (h : FVec F S768x100 .f32) (W12 : FVec F S100x100 .f32) (b13 : FVec F S100 .f32) (W14 : FVec F S100x100 .f32) (b15 : FVec F S100 .f32) : FVec F S768x100 .f32 :=
  addf h (lin bcast_S1x100_S768x100_0_1 (Host.reduceAdd (shapeCast S768x768x100 (lin bcast_S1x100_S589824x100_0_1 e' W12 b13) shapeCasts_S589824x100_S768x768x100)
    (constant (F := F) S_ .f32 0x00000000#32) reducesTo_S768x768x100_S768x100_d1 h_S_) W14 b15)

end Iter

-- A dense layer read at an index is the specification's: the plain product's entry plus the bias at the column.
theorem lin_apply {M K : Nat} (hb : S1x100.BroadcastsInDim ⟨2, ![M, 100]⟩ (![0, 1] : Fin 2 → Fin 2)) (x : FVec Ideal ⟨2, ![M, K]⟩ .f32) (W : FVec Ideal ⟨2, ![K, 100]⟩ .f32)
    (b : FVec Ideal S100 .f32) (i : (⟨2, ![M, 100]⟩ : Shape).Idx) :
    lin (F := Ideal) hb x W b i = Spec.lin (Spec.mat x) (Spec.mat W) (Spec.vec b) (i 0) (i 1) := by
  obtain ⟨r, c, rfl⟩ : ∃ (r : Fin M) (c : Fin 100), i = ix2 r c := ⟨i 0, i 1, eq_ix2 i⟩
  unfold lin
  rw [addf_apply, StackMember.dotGeneral_plain_apply,
    broadcastInDim_apply _ hb _ (ix2 r c) (ix2 (0 : Fin 1) c) (fun a => match a with
      | ⟨0, _⟩ => by show 0 = if (1 : Nat) = 1 then 0 else r.val; rw [if_pos rfl]
      | ⟨1, _⟩ => by show c.val = if (100 : Nat) = 1 then 0 else c.val; rw [if_neg (by decide)]),
    broadcastInDim_apply _ bcast_S100_S1x100_1 b (ix2 (0 : Fin 1) c) (ix1 c) (fun a => match a with
      | ⟨0, _⟩ => by show c.val = if (100 : Nat) = 1 then 0 else c.val; rw [if_neg (by decide)])]
  rfl

theorem tr_apply (y : FVec Ideal S768x100 .f32) (i : S100x768.Idx) :
    transpose S100x768 [1, 0] y transposes_S768x100_S100x768_1_0 i = y (ix2 (i 1) (i 0)) :=
  transpose_apply [1, 0] y transposes_S768x100_S100x768_1_0 i (ix2 (i 1) (i 0)) (fun b => match b with
    | ⟨0, _⟩ => rfl
    | ⟨1, _⟩ => rfl)

-- Row `r` of the flattened `[768, 768]` array is its entry `(r / 768, r % 768)`: the same row-major position.
theorem cast2_apply (y : FVec Ideal S768x768 .f32) (r : Fin 589824) :
    shapeCast S589824x1 y shapeCasts_S768x768_S589824x1 (ix2 r (0 : Fin 1)) = y (ix2 (Spec.rowI r) (Spec.rowJ r)) :=
  shapeCast_apply y shapeCasts_S768x768_S589824x1 (ix2 r (0 : Fin 1)) (ix2 (Spec.rowI r) (Spec.rowJ r))
    (by rewrite [Shape.rowMajor_val_two, Shape.rowMajor_val_two]; show r.val / 768 * 768 + r.val % 768 = r.val * 1 + 0; omega)

theorem bc_apply (y : FVec Ideal S589824x1 .f32) (r : Fin 589824) (c : Fin 100) :
    broadcastInDim S589824x100 ![0, 1] bcast_S589824x1_S589824x100_0_1 y (ix2 r c) = y (ix2 r (0 : Fin 1)) :=
  broadcastInDim_apply _ bcast_S589824x1_S589824x100_0_1 y (ix2 r c) (ix2 r (0 : Fin 1)) (fun a => match a with
    | ⟨0, _⟩ => by show r.val = if (589824 : Nat) = 1 then 0 else r.val; rw [if_neg (by decide)]
    | ⟨1, _⟩ => by show 0 = if (1 : Nat) = 1 then 0 else c.val; rw [if_pos rfl])

def rowOf (a j : Fin 768) : Fin 589824 := ⟨a.val * 768 + j.val, by have := a.isLt; have := j.isLt; omega⟩

theorem cast3_apply (y : FVec Ideal S589824x100 .f32) (a j : Fin 768) (k : Fin 100) :
    shapeCast S768x768x100 y shapeCasts_S589824x100_S768x768x100 (ix3 a j k) = y (ix2 (rowOf a j) k) :=
  shapeCast_apply y shapeCasts_S589824x100_S768x768x100 (ix3 a j k) (ix2 (rowOf a j) k)
    (by rewrite [Shape.rowMajor_val_two, Shape.rowMajor_val_three]; rfl)

theorem red_apply (y : FVec Ideal S768x768x100 .f32) (init : FVec Ideal S_ .f32) (a : Fin 768) (k : Fin 100) :
    Host.reduceAdd (F := Ideal) y init reducesTo_S768x768x100_S768x100_d1 h_S_ (ix2 a k)
      = init (Shape.Idx.first h_S_) + ∑ j : Fin 768, y (ix3 a j k) := by
  simp only [Host.reduceAdd, Ideal.hostReduceAdd_def]
  rw [Ideal.hostReduceAdd_single reducesTo_S768x768x100_S768x100_d1 (by decide)]
  refine congrArg (_ + ·) (Finset.sum_congr rfl fun j _ => ?_)
  exact congrArg y (funext fun b => Fin.ext (by match b with | ⟨0, _⟩ => rfl | ⟨1, _⟩ => rfl | ⟨2, _⟩ => rfl))

-- The edge array read by the node pair of row `r` is row `r`: `(r / 768) · 768 + r % 768 = r`.
theorem edgesW_row {C : Nat} (A : Spec.Arr2 589824 C) (r : Fin 589824) (c : Fin C) :
    Spec.edgesW A (Spec.rowI r) (Spec.rowJ r) c = Spec.mat A r c := by
  refine congrArg (fun q : Fin 589824 => A (ix2 q c)) (Fin.ext ?_)
  show r.val / 768 * 768 + r.val % 768 = r.val
  omega

theorem zeroE_apply (i : S589824x100.Idx) : zeroE (F := Ideal) i = 0 := by
  unfold zeroE
  rw [broadcastInDim_apply _ bcast_S_S589824x100 _ i ix0 (fun a => a.elim0), constant_apply, Ideal.ofBits_zero_f32]

theorem pairB_apply (h : FVec Ideal S768x100 .f32) (Wi Wj : FVec Ideal S100x100 .f32) (r : Fin 589824) (c : Fin 100) :
    pairB (F := Ideal) h Wi Wj (ix2 r c)
      = Spec.pair (Spec.mat h) (Spec.mat h) (Spec.mat Wi) (Spec.mat Wj) (Spec.rowI r) (Spec.rowJ r) := by
  unfold pairB
  rw [bc_apply, cast2_apply, StackMember.dotGeneral_plain_apply]
  refine Finset.sum_congr rfl fun l _ => ?_
  rw [tr_apply, StackMember.dotGeneral_plain_apply, StackMember.dotGeneral_plain_apply]
  rfl

theorem stepE_row (e : Spec.Arr2 589824 100) (h : Spec.Arr2 768 100) (Weij : Spec.Arr2 100 100) (beij : Fin 100 → EReal)
    (Wi Wj Wde : Spec.Arr2 100 100) (bde : Fin 100 → EReal) (r : Fin 589824) (c : Fin 100) :
    Spec.stepE e h Weij beij Wi Wj Wde bde (ix2 r c)
      = Spec.mat e r c + ((∑ k : Fin 100, max (Spec.lin (Spec.mat e) (Spec.mat Weij) beij r k
          + Spec.pair (Spec.mat h) (Spec.mat h) (Spec.mat Wi) (Spec.mat Wj) (Spec.rowI r) (Spec.rowJ r)) 0 * Spec.mat Wde k c) + bde c) := by
  show Spec.newE (Spec.edgesW e) (Spec.mat h) (Spec.mat h) (Spec.mat Weij) beij (Spec.mat Wi) (Spec.mat Wj) (Spec.mat Wde) bde
    (Spec.rowI r) (Spec.rowJ r) c = _
  unfold Spec.newE Spec.hidden Spec.lin Spec.mm
  simp only [edgesW_row]

-- One update's edges are the specification's edge step: row by row, the dense layers and the pair product read at the index.
theorem iterE_eq (e : FVec Ideal S589824x100 .f32) (h : FVec Ideal S768x100 .f32) (W6 : FVec Ideal S100x100 .f32) (b7 : FVec Ideal S100 .f32) (W8 W9 W10 : FVec Ideal S100x100 .f32) (b11 : FVec Ideal S100 .f32) :
    iterE (F := Ideal) e h W6 b7 W8 W9 W10 b11 = Spec.stepE e h W6 (Spec.vec b7) W8 W9 W10 (Spec.vec b11) := by
  funext i
  obtain ⟨r, c, rfl⟩ : ∃ (r : Fin 589824) (c : Fin 100), i = ix2 r c := ⟨i 0, i 1, eq_ix2 i⟩
  rw [stepE_row]
  unfold iterE
  rw [addf_apply, lin_apply]
  refine congrArg₂ (· + ·) rfl (congrArg₂ (· + ·) (Finset.sum_congr rfl fun k _ => congrArg₂ (· * ·) ?_ rfl) rfl)
  show max (lin (F := Ideal) bcast_S1x100_S589824x100_0_1 e W6 b7 (ix2 r k) + pairB (F := Ideal) h W8 W9 (ix2 r k)) (zeroE (F := Ideal) (ix2 r k)) = _
  rw [lin_apply, pairB_apply, zeroE_apply]

-- One update's nodes are the specification's node step: the sum over the second node of the rows `a · 768 + j`.
theorem iterH_eq (e' : FVec Ideal S589824x100 .f32) (h : FVec Ideal S768x100 .f32) (W12 : FVec Ideal S100x100 .f32) (b13 : FVec Ideal S100 .f32) (W14 : FVec Ideal S100x100 .f32) (b15 : FVec Ideal S100 .f32) :
    iterH (F := Ideal) e' h W12 b13 W14 b15 = Spec.stepH e' h W12 (Spec.vec b13) W14 (Spec.vec b15) := by
  funext i
  obtain ⟨a, c, rfl⟩ : ∃ (a : Fin 768) (c : Fin 100), i = ix2 a c := ⟨i 0, i 1, eq_ix2 i⟩
  show _ = Spec.mat h a c + ((∑ k : Fin 100, (0 + ∑ j : Fin 768, Spec.lin (Spec.mat e') (Spec.mat W12) (Spec.vec b13) (rowOf a j) k)
      * Spec.mat W14 k c) + Spec.vec b15 c)
  unfold iterH
  rw [addf_apply, lin_apply]
  refine congrArg₂ (· + ·) rfl (congrArg₂ (· + ·) (Finset.sum_congr rfl fun k _ => congrArg₂ (· * ·) ?_ rfl) rfl)
  show Host.reduceAdd (F := Ideal) (shapeCast S768x768x100 (lin (F := Ideal) bcast_S1x100_S589824x100_0_1 e' W12 b13) shapeCasts_S589824x100_S768x768x100)
    (constant S_ .f32 0x00000000#32) reducesTo_S768x768x100_S768x100_d1 h_S_ (ix2 a k) = _
  rw [red_apply, constant_apply, Ideal.ofBits_zero_f32]
  refine congrArg (0 + ·) (Finset.sum_congr rfl fun j _ => ?_)
  rw [cast3_apply, lin_apply]

section Run
variable {F : FTy → Type} [FloatOps F]

abbrev opsEnc : List (HloOp τ sig (Elt F)) :=
  [ binary main_arg0 main_arg2 main_v0 (Host.dotGeneral dot_S768x32_S32x100_S768x100_1_0_0_1_n_n none),
    unary main_arg3 main_v1 (broadcastInDim S1x100 ![1] bcast_S100_S1x100_1),
    unary main_v1 main_v2 (broadcastInDim S768x100 ![0, 1] bcast_S1x100_S768x100_0_1),
    binary main_v0 main_v2 main_v3 addf,
    binary main_arg1 main_arg4 main_v4 (Host.dotGeneral dot_S589824x16_S16x100_S589824x100_1_0_0_1_n_n none),
    unary main_arg5 main_v5 (broadcastInDim S1x100 ![1] bcast_S100_S1x100_1),
    unary main_v5 main_v6 (broadcastInDim S589824x100 ![0, 1] bcast_S1x100_S589824x100_0_1),
    binary main_v4 main_v6 main_v7 addf ]
theorem opsEnc_sub : (opsEnc : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem opsEnc_fresh : (opsEnc : List (HloOp τ sig (Elt F))).Forall fun op => op.fresh = ∅ := by
  simp only [List.Forall]; repeat' constructor
abbrev opsEnc_W : List (Ref sig .tc) := [main_v0, main_v1, main_v2, main_v3, main_v4, main_v5, main_v6, main_v7]
theorem opsEnc_writes : (opsEnc : List (HloOp τ sig (Elt F))).Forall fun op => op.writes ⊆ (opsEnc_W.map (Proc.devRef (τ := τ) .tc)).toFinset := by
  simp only [List.Forall, StableHlo.unary_writes, StableHlo.binary_writes, Finset.singleton_subset_iff, List.mem_toFinset]
  refine ⟨?_, ?_, ?_, ?_, ?_, ?_, ?_, ?_⟩ <;> exact List.mem_map_of_mem (by decide)
theorem opsEnc_keep (W : Valuation τ sig (Elt F)) (r : Ref sig .tc) (h : r ∉ opsEnc_W) :
    after opsEnc W (no_index (Proc.devRef .tc r)) = W (Proc.devRef .tc r) :=
  after_of_writes_sub opsEnc W opsEnc_writes h

abbrev RE := TRef sig ⟨S589824x100, .f32⟩
abbrev RH := TRef sig ⟨S768x100, .f32⟩
abbrev RB := TRef sig ⟨S1x100, .f32⟩
abbrev R0 := TRef sig ⟨S_, .f32⟩
-- The buffers of one round: the pair it reads, then one per value it computes, in order (`e'`, `h'` hold the updated pair).
structure Round where
  (e : RE) (h : RH)
  (t0 : RE) (t1 : RB) (t2 t3 : RE) (t4 t5 : RH) (t6 : TRef sig ⟨S100x768, .f32⟩) (t7 : TRef sig ⟨S768x768, .f32⟩) (t8 : TRef sig ⟨S589824x1, .f32⟩) (t9 t10 : RE) (t11 : R0) (t12 t13 t14 : RE) (t15 : RB) (t16 t17 e' t19 : RE) (t20 : RB) (t21 t22 : RE) (t23 : TRef sig ⟨S768x768x100, .f32⟩) (t24 : R0) (t25 t26 : RH) (t27 : RB) (t28 t29 h' : RH)

abbrev a6 : TRef sig ⟨S100x100, .f32⟩ := .of main_arg6
abbrev a7 : TRef sig ⟨S100, .f32⟩ := .of main_arg7
abbrev a8 : TRef sig ⟨S100x100, .f32⟩ := .of main_arg8
abbrev a9 : TRef sig ⟨S100x100, .f32⟩ := .of main_arg9
abbrev a10 : TRef sig ⟨S100x100, .f32⟩ := .of main_arg10
abbrev a11 : TRef sig ⟨S100, .f32⟩ := .of main_arg11
abbrev a12 : TRef sig ⟨S100x100, .f32⟩ := .of main_arg12
abbrev a13 : TRef sig ⟨S100, .f32⟩ := .of main_arg13
abbrev a14 : TRef sig ⟨S100x100, .f32⟩ := .of main_arg14
abbrev a15 : TRef sig ⟨S100, .f32⟩ := .of main_arg15

def opsIt (b : Round) : List (HloOp τ sig (Elt F)) :=
  [ TRef.binary b.e a6 b.t0 (Host.dotGeneral dot_S589824x100_S100x100_S589824x100_1_0_0_1_n_n none),
    TRef.unary a7 b.t1 (broadcastInDim S1x100 ![1] bcast_S100_S1x100_1),
    TRef.unary b.t1 b.t2 (broadcastInDim S589824x100 ![0, 1] bcast_S1x100_S589824x100_0_1),
    TRef.binary b.t0 b.t2 b.t3 addf,
    TRef.binary b.h a8 b.t4 (Host.dotGeneral dot_S768x100_S100x100_S768x100_1_0_0_1_n_n none),
    TRef.binary b.h a9 b.t5 (Host.dotGeneral dot_S768x100_S100x100_S768x100_1_0_0_1_n_n none),
    TRef.unary b.t5 b.t6 (transpose S100x768 [1, 0] · transposes_S768x100_S100x768_1_0),
    TRef.binary b.t4 b.t6 b.t7 (Host.dotGeneral dot_S768x100_S100x768_S768x768_1_0_0_1_n_n none),
    TRef.reshape b.t7 b.t8 rfl shapeCasts_S768x768_S589824x1,
    TRef.unary b.t8 b.t9 (broadcastInDim S589824x100 ![0, 1] bcast_S589824x1_S589824x100_0_1),
    TRef.binary b.t3 b.t9 b.t10 addf,
    TRef.nullary b.t11 (constant S_ .f32 0x00000000#32),
    TRef.unary b.t11 b.t12 (broadcastInDim S589824x100 ![] bcast_S_S589824x100),
    TRef.binary b.t10 b.t12 b.t13 maximumf,
    TRef.binary b.t13 a10 b.t14 (Host.dotGeneral dot_S589824x100_S100x100_S589824x100_1_0_0_1_n_n none),
    TRef.unary a11 b.t15 (broadcastInDim S1x100 ![1] bcast_S100_S1x100_1),
    TRef.unary b.t15 b.t16 (broadcastInDim S589824x100 ![0, 1] bcast_S1x100_S589824x100_0_1),
    TRef.binary b.t14 b.t16 b.t17 addf,
    TRef.binary b.e b.t17 b.e' addf,
    TRef.binary b.e' a12 b.t19 (Host.dotGeneral dot_S589824x100_S100x100_S589824x100_1_0_0_1_n_n none),
    TRef.unary a13 b.t20 (broadcastInDim S1x100 ![1] bcast_S100_S1x100_1),
    TRef.unary b.t20 b.t21 (broadcastInDim S589824x100 ![0, 1] bcast_S1x100_S589824x100_0_1),
    TRef.binary b.t19 b.t21 b.t22 addf,
    TRef.reshape b.t22 b.t23 rfl shapeCasts_S589824x100_S768x768x100,
    TRef.nullary b.t24 (constant S_ .f32 0x00000000#32),
    TRef.binary b.t23 b.t24 b.t25 (fun x v => Host.reduceAdd x v reducesTo_S768x768x100_S768x100_d1 h_S_),
    TRef.binary b.t25 a14 b.t26 (Host.dotGeneral dot_S768x100_S100x100_S768x100_1_0_0_1_n_n none),
    TRef.unary a15 b.t27 (broadcastInDim S1x100 ![1] bcast_S100_S1x100_1),
    TRef.unary b.t27 b.t28 (broadcastInDim S768x100 ![0, 1] bcast_S1x100_S768x100_0_1),
    TRef.binary b.t26 b.t28 b.t29 addf,
    TRef.binary b.h b.t29 b.h' addf ]
theorem opsIt_sub (b : Round) : (opsIt b : List (HloOp τ sig (Elt F))).Forall fun op => op.bufs ⊆ tcRefs τ sig := by
  unfold opsIt
  exact ⟨binary_bufs_sub .., unary_bufs_sub .., unary_bufs_sub .., binary_bufs_sub .., binary_bufs_sub .., binary_bufs_sub .., unary_bufs_sub .., binary_bufs_sub .., reshape_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., reshape_bufs_sub .., nullary_bufs_sub .., binary_bufs_sub .., binary_bufs_sub .., unary_bufs_sub .., unary_bufs_sub .., binary_bufs_sub .., binary_bufs_sub ..⟩
theorem opsIt_fresh (b : Round) : (opsIt b : List (HloOp τ sig (Elt F))).Forall fun op => op.fresh = ∅ := by
  simp only [opsIt, List.Forall]; repeat' constructor
abbrev Round.W (b : Round) : List (Ref sig .tc) := [b.t0.ref, b.t1.ref, b.t2.ref, b.t3.ref, b.t4.ref, b.t5.ref, b.t6.ref, b.t7.ref, b.t8.ref, b.t9.ref, b.t10.ref, b.t11.ref, b.t12.ref, b.t13.ref, b.t14.ref, b.t15.ref, b.t16.ref, b.t17.ref, b.e'.ref, b.t19.ref, b.t20.ref, b.t21.ref, b.t22.ref, b.t23.ref, b.t24.ref, b.t25.ref, b.t26.ref, b.t27.ref, b.t28.ref, b.t29.ref, b.h'.ref]
theorem opsIt_writes (b : Round) : (opsIt b : List (HloOp τ sig (Elt F))).Forall fun op => op.writes ⊆ (b.W.map (Proc.devRef (τ := τ) .tc)).toFinset := by
  have mem : ∀ (n : Nat) (h : n < 31), Proc.devRef (τ := τ) .tc (b.W[n]'h) ∈ b.W.map (Proc.devRef .tc) := fun n h => List.mem_map_of_mem (List.getElem_mem h)
  simp only [opsIt, List.Forall, TRef.nullary, TRef.unary, TRef.binary, TRef.reshape, StableHlo.nullary_writes, StableHlo.unary_writes, StableHlo.binary_writes, StableHlo.reshape_writes, Finset.singleton_subset_iff, List.mem_toFinset]
  exact ⟨mem 0 (by decide), mem 1 (by decide), mem 2 (by decide), mem 3 (by decide), mem 4 (by decide), mem 5 (by decide), mem 6 (by decide), mem 7 (by decide), mem 8 (by decide), mem 9 (by decide), mem 10 (by decide), mem 11 (by decide), mem 12 (by decide), mem 13 (by decide), mem 14 (by decide), mem 15 (by decide), mem 16 (by decide), mem 17 (by decide), mem 18 (by decide), mem 19 (by decide), mem 20 (by decide), mem 21 (by decide), mem 22 (by decide), mem 23 (by decide), mem 24 (by decide), mem 25 (by decide), mem 26 (by decide), mem 27 (by decide), mem 28 (by decide), mem 29 (by decide), mem 30 (by decide)⟩
theorem opsIt_keep (b : Round) (W : Valuation τ sig (Elt F)) (r : Ref sig .tc) (h : r ∉ b.W) :
    after (opsIt b) W (no_index (Proc.devRef .tc r)) = W (Proc.devRef .tc r) :=
  after_of_writes_sub (opsIt b) W (opsIt_writes b) h

abbrev r1 : Round := ⟨.of main_v7, .of main_v3, .of main_v8, .of main_v9, .of main_v10, .of main_v11, .of main_v12, .of main_v13, .of main_v14, .of main_v15, .of main_v16, .of main_v17, .of main_v18, .of main_call0_cst, .of main_call0_v0, .of main_v19, .of main_v20, .of main_v21, .of main_v22, .of main_v23, .of main_v24, .of main_v25, .of main_v26, .of main_v27, .of main_v28, .of main_v29, .of main_cst, .of main_v30, .of main_v31, .of main_v32, .of main_v33, .of main_v34, .of main_v35⟩
abbrev r2 : Round := ⟨.of main_v24, .of main_v35, .of main_v36, .of main_v37, .of main_v38, .of main_v39, .of main_v40, .of main_v41, .of main_v42, .of main_v43, .of main_v44, .of main_v45, .of main_v46, .of main_call1_cst, .of main_call1_v0, .of main_v47, .of main_v48, .of main_v49, .of main_v50, .of main_v51, .of main_v52, .of main_v53, .of main_v54, .of main_v55, .of main_v56, .of main_v57, .of main_cst_0, .of main_v58, .of main_v59, .of main_v60, .of main_v61, .of main_v62, .of main_v63⟩
abbrev r3 : Round := ⟨.of main_v52, .of main_v63, .of main_v64, .of main_v65, .of main_v66, .of main_v67, .of main_v68, .of main_v69, .of main_v70, .of main_v71, .of main_v72, .of main_v73, .of main_v74, .of main_call2_cst, .of main_call2_v0, .of main_v75, .of main_v76, .of main_v77, .of main_v78, .of main_v79, .of main_v80, .of main_v81, .of main_v82, .of main_v83, .of main_v84, .of main_v85, .of main_cst_1, .of main_v86, .of main_v87, .of main_v88, .of main_v89, .of main_v90, .of main_v91⟩

abbrev ops : List (HloOp τ sig (Elt F)) := opsEnc ++ (opsIt r1 ++ (opsIt r2 ++ opsIt r3))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

-- One update of the pair `s`, the weights read in the arguments' contents `V`.
def iter (V : Valuation τ sig (Elt F)) (s : FVec F S589824x100 .f32 × FVec F S768x100 .f32) : FVec F S589824x100 .f32 × FVec F S768x100 .f32 :=
  (iterE s.1 s.2 (V (Proc.devRef .tc main_arg6)) (V (Proc.devRef .tc main_arg7)) (V (Proc.devRef .tc main_arg8)) (V (Proc.devRef .tc main_arg9)) (V (Proc.devRef .tc main_arg10)) (V (Proc.devRef .tc main_arg11)), iterH (iterE s.1 s.2 (V (Proc.devRef .tc main_arg6)) (V (Proc.devRef .tc main_arg7)) (V (Proc.devRef .tc main_arg8)) (V (Proc.devRef .tc main_arg9)) (V (Proc.devRef .tc main_arg10)) (V (Proc.devRef .tc main_arg11))) s.2 (V (Proc.devRef .tc main_arg12)) (V (Proc.devRef .tc main_arg13)) (V (Proc.devRef .tc main_arg14)) (V (Proc.devRef .tc main_arg15)))

theorem opsEnc_edges (W : Valuation τ sig (Elt F)) :
    after opsEnc W (Proc.devRef .tc main_v7) = lin (K := 16) bcast_S1x100_S589824x100_0_1 (W (Proc.devRef .tc main_arg1)) (W (Proc.devRef .tc main_arg4)) (W (Proc.devRef .tc main_arg5)) := by
  after_results
  rfl
theorem opsEnc_nodes (W : Valuation τ sig (Elt F)) :
    after opsEnc W (Proc.devRef .tc main_v3) = lin (K := 32) bcast_S1x100_S768x100_0_1 (W (Proc.devRef .tc main_arg0)) (W (Proc.devRef .tc main_arg2)) (W (Proc.devRef .tc main_arg3)) := by
  after_results
  rfl
theorem opsIt1_edges (W : Valuation τ sig (Elt F)) :
    after (opsIt r1) W (Proc.devRef .tc main_v24) = (iter W (W (Proc.devRef .tc main_v7), W (Proc.devRef .tc main_v3))).1 := by
  unfold opsIt
  after_results_simp
  rfl
theorem opsIt1_nodes (W : Valuation τ sig (Elt F)) :
    after (opsIt r1) W (Proc.devRef .tc main_v35) = (iter W (W (Proc.devRef .tc main_v7), W (Proc.devRef .tc main_v3))).2 := by
  unfold opsIt
  after_results_simp
  rfl
theorem opsIt2_edges (W : Valuation τ sig (Elt F)) :
    after (opsIt r2) W (Proc.devRef .tc main_v52) = (iter W (W (Proc.devRef .tc main_v24), W (Proc.devRef .tc main_v35))).1 := by
  unfold opsIt
  after_results_simp
  rfl
theorem opsIt2_nodes (W : Valuation τ sig (Elt F)) :
    after (opsIt r2) W (Proc.devRef .tc main_v63) = (iter W (W (Proc.devRef .tc main_v24), W (Proc.devRef .tc main_v35))).2 := by
  unfold opsIt
  after_results_simp
  rfl
theorem opsIt3_edges (W : Valuation τ sig (Elt F)) :
    after (opsIt r3) W (Proc.devRef .tc main_v80) = (iter W (W (Proc.devRef .tc main_v52), W (Proc.devRef .tc main_v63))).1 := by
  unfold opsIt
  after_results_simp
  rfl
theorem opsIt3_nodes (W : Valuation τ sig (Elt F)) :
    after (opsIt r3) W (Proc.devRef .tc main_v91) = (iter W (W (Proc.devRef .tc main_v52), W (Proc.devRef .tc main_v63))).2 := by
  unfold opsIt
  after_results_simp
  rfl

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_sub : (ops : List (HloOp τ sig (Elt F))).Forall fun op => op.bufs ⊆ tcRefs τ sig :=
  List.forall_append.mpr ⟨opsEnc_sub, List.forall_append.mpr ⟨opsIt_sub r1, List.forall_append.mpr ⟨opsIt_sub r2, opsIt_sub r3⟩⟩⟩
theorem ops_fresh : (ops : List (HloOp τ sig (Elt F))).Forall fun op => op.fresh = ∅ :=
  List.forall_append.mpr ⟨opsEnc_fresh, List.forall_append.mpr ⟨opsIt_fresh r1, List.forall_append.mpr ⟨opsIt_fresh r2, opsIt_fresh r3⟩⟩⟩

theorem arg_kept (m : (ℓ : Loc nD τ sig) → Buf (Elt F) ℓ) (c : Dev nD) (r : Ref sig .tc) (hr : r ∉ opsEnc_W ++ (r1.W ++ (r2.W ++ r3.W))) :
    after ops (launchContents m c) (Proc.devRef .tc r) = m ((c.tc : Thread nD τ).loc r) := by
  simp only [List.mem_append, not_or] at hr
  have hops : (ops : List (HloOp τ sig (Elt F))) = opsEnc ++ (opsIt r1 ++ (opsIt r2 ++ opsIt r3)) := rfl
  rw [hops, after_app, after_app, after_app]
  exact (opsIt_keep r3 _ r hr.2.2.2).trans ((opsIt_keep r2 _ r hr.2.2.1).trans ((opsIt_keep r1 _ r hr.2.1).trans (opsEnc_keep _ r hr.1)))

-- Three updates of the encoded pair, everything read in the arguments' contents `V`.
def run3 (V : Valuation τ sig (Elt F)) : FVec F S589824x100 .f32 × FVec F S768x100 .f32 :=
  iter V (iter V (iter V (lin (K := 16) bcast_S1x100_S589824x100_0_1 (V (Proc.devRef .tc main_arg1)) (V (Proc.devRef .tc main_arg4)) (V (Proc.devRef .tc main_arg5)),
    lin (K := 32) bcast_S1x100_S768x100_0_1 (V (Proc.devRef .tc main_arg0)) (V (Proc.devRef .tc main_arg2)) (V (Proc.devRef .tc main_arg3)))))

theorem run_iter (V : Valuation τ sig (Elt F)) :
    after ops V (Proc.devRef .tc main_v80) = (run3 V).1 ∧ after ops V (Proc.devRef .tc main_v91) = (run3 V).2 := by
  have hops : (ops : List (HloOp τ sig (Elt F))) = opsEnc ++ (opsIt r1 ++ (opsIt r2 ++ opsIt r3)) := rfl
  rw [hops, after_app, after_app, after_app, opsIt3_edges, opsIt3_nodes, opsIt2_edges, opsIt2_nodes, opsIt1_edges, opsIt1_nodes,
    opsEnc_edges, opsEnc_nodes]
  simp (disch := decide) only [iter, opsEnc_keep, opsIt_keep]
  exact ⟨rfl, rfl⟩

end Run

theorem iter_step (V : Valuation τ sig (Elt Ideal)) (s : Spec.Arr2 589824 100 × Spec.Arr2 768 100) :
    iter (F := Ideal) V s = Spec.step (Spec.weightsOf (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) s := by
  unfold iter
  rw [iterE_eq, iterH_eq]
  rfl

-- Three updates of the encoded pair are the specification's pair of the arguments: the encoders, then three steps.
theorem run3_eq (V : Valuation τ sig (Elt Ideal)) :
    (run3 V : Spec.Arr2 589824 100 × Spec.Arr2 768 100) = Spec.final (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  unfold run3
  rw [iter_step, iter_step, iter_step]
  exact congrArg (Spec.step _) (congrArg (Spec.step _) (congrArg (Spec.step _)
    (congrArg₂ Prod.mk (funext fun i => lin_apply ..) (funext fun i => lin_apply ..))))

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = (Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).2
      ∧ r.2.mem ((c.tc : Thread nD τ).loc main_v80) = (Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))).1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun s h c =>
    have k : ∀ r : Ref sig .tc, r ∉ opsEnc_W ++ (r1.W ++ (r2.W ++ r3.W)) → s.2.mem ((c.tc : Thread nD τ).loc r) = m ((c.tc : Thread nD τ).loc r) :=
      fun r hr => (h c r).trans (arg_kept m c r hr)
    ⟨(h c main_v91).trans ((run_iter _).2.trans (congrArg Prod.snd (run3_eq _))), (h c main_v80).trans ((run_iter _).1.trans (congrArg Prod.fst (run3_eq _))),
      k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide)⟩)
    (run_seq scopedRefs_eq scopedSems_eq defs main (fun _ => ops) main_eq (fun _ => ops_sub) m ρ
      (fun _ op hop => List.forall_iff_forall_mem.mp ops_fresh op hop))

end Cert.RefRunH

end
-- ==== Proof.lean ====
import proofs.«113144_j23983097381472_1_alg».proof.Defs
import proofs.«113144_j23983097381472_1_alg».proof.Proof.K.Run
import proofs.«113144_j23983097381472_1_alg».proof.Proof.KI.Run
import proofs.«113144_j23983097381472_1_alg».proof.Proof.KI.Chain
import proofs.«113144_j23983097381472_1_alg».proof.Proof.RefRunH
import proofs.«113144_j23983097381472_1_alg».proof.Proof.Gen.Kernel
import proofs.«113144_j23983097381472_1_alg».proof.Proof.Gen.KernelIdeal
import proofs.«113144_j23983097381472_1_alg».proof.Proof.Gen.ReferenceIdeal
import proofs.«113144_j23983097381472_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

section
open Cert.Spec

-- the specification's pair depends on the sixteen arrays only
theorem final_congr {x0 y0 : Arr2 768 32} {x1 y1 : Arr2 589824 16} {x2 y2 : Arr2 32 100} {x4 y4 : Arr2 16 100}
    {x3 y3 x5 y5 x7 y7 x11 y11 x13 y13 x15 y15 : Arr1 100} {x6 y6 x8 y8 x9 y9 x10 y10 x12 y12 x14 y14 : Arr2 100 100}
    (h0 : x0 = y0) (h1 : x1 = y1) (h2 : x2 = y2) (h3 : x3 = y3) (h4 : x4 = y4) (h5 : x5 = y5) (h6 : x6 = y6) (h7 : x7 = y7)
    (h8 : x8 = y8) (h9 : x9 = y9) (h10 : x10 = y10) (h11 : x11 = y11) (h12 : x12 = y12) (h13 : x13 = y13) (h14 : x14 = y14)
    (h15 : x15 = y15) :
    final x0 x1 x2 x3 x4 x5 x6 x7 x8 x9 x10 x11 x12 x13 x14 x15 = final y0 y1 y2 y3 y4 y5 y6 y7 y8 y9 y10 y11 y12 y13 y14 y15 := by
  subst_vars; rfl

end

section
open Cert.Kernel Cert.Kernel.Gen Cert.Kernel.Hand

-- no item of the program writes an argument, so the last boundary's contents hold each as launched
theorem frame_k : Cert.frame_Kernel := fun m ρ _ =>
  (θ_run defs _ _).mono (fun r h c =>
    have k := fun (a : Ref sig .tc) ha => h c _ (mem_uc a ha)
    ⟨(k main_arg0 (by decide)).trans (V8_main_arg0 m (outs m) c),
      (k main_arg1 (by decide)).trans (V8_main_arg1 m (outs m) c),
      (k main_arg2 (by decide)).trans (V8_main_arg2 m (outs m) c),
      (k main_arg3 (by decide)).trans (V8_main_arg3 m (outs m) c),
      (k main_arg4 (by decide)).trans (V8_main_arg4 m (outs m) c),
      (k main_arg5 (by decide)).trans (V8_main_arg5 m (outs m) c),
      (k main_arg6 (by decide)).trans (V8_main_arg6 m (outs m) c),
      (k main_arg7 (by decide)).trans (V8_main_arg7 m (outs m) c),
      (k main_arg8 (by decide)).trans (V8_main_arg8 m (outs m) c),
      (k main_arg9 (by decide)).trans (V8_main_arg9 m (outs m) c),
      (k main_arg10 (by decide)).trans (V8_main_arg10 m (outs m) c),
      (k main_arg11 (by decide)).trans (V8_main_arg11 m (outs m) c),
      (k main_arg12 (by decide)).trans (V8_main_arg12 m (outs m) c),
      (k main_arg13 (by decide)).trans (V8_main_arg13 m (outs m) c),
      (k main_arg14 (by decide)).trans (V8_main_arg14 m (outs m) c),
      (k main_arg15 (by decide)).trans (V8_main_arg15 m (outs m) c)⟩) (run_all (F := Bits) m ρ)

end

open Cert.KernelIdeal Cert.KernelIdeal.Gen Cert.KernelIdeal.Hand

theorem frame_ki : Cert.frame_KernelIdeal := fun m ρ _ =>
  (θ_run defs _ _).mono (fun r h c =>
    have k := fun (a : Ref sig .tc) ha => h c _ (mem_uc a ha)
    ⟨(k main_arg0 (by decide)).trans (V8_main_arg0 m (outs m) c),
      (k main_arg1 (by decide)).trans (V8_main_arg1 m (outs m) c),
      (k main_arg2 (by decide)).trans (V8_main_arg2 m (outs m) c),
      (k main_arg3 (by decide)).trans (V8_main_arg3 m (outs m) c),
      (k main_arg4 (by decide)).trans (V8_main_arg4 m (outs m) c),
      (k main_arg5 (by decide)).trans (V8_main_arg5 m (outs m) c),
      (k main_arg6 (by decide)).trans (V8_main_arg6 m (outs m) c),
      (k main_arg7 (by decide)).trans (V8_main_arg7 m (outs m) c),
      (k main_arg8 (by decide)).trans (V8_main_arg8 m (outs m) c),
      (k main_arg9 (by decide)).trans (V8_main_arg9 m (outs m) c),
      (k main_arg10 (by decide)).trans (V8_main_arg10 m (outs m) c),
      (k main_arg11 (by decide)).trans (V8_main_arg11 m (outs m) c),
      (k main_arg12 (by decide)).trans (V8_main_arg12 m (outs m) c),
      (k main_arg13 (by decide)).trans (V8_main_arg13 m (outs m) c),
      (k main_arg14 (by decide)).trans (V8_main_arg14 m (outs m) c),
      (k main_arg15 (by decide)).trans (V8_main_arg15 m (outs m) c)⟩) (run_all (F := Ideal) m ρ)

theorem frame_ri : Cert.frame_ReferenceIdeal := fun m ρ _ =>
  (θ_run Cert.ReferenceIdeal.defs _ _).mono (fun _ h c => (h c).2.2) (Cert.RefRunH.run_spec m ρ)

/-- The specification's pair (edges, nodes) at the sixteen arguments as launched. -/
abbrev result (m : (ℓ : Loc nD τ sig) → Buf (Elt Ideal) ℓ) (c : Dev nD) :=
  Cert.Spec.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

-- both programs end at the specification's pair of their own arguments, and the arguments agree
theorem algebraic : Cert.algebraic_KernelIdeal_ReferenceIdeal := by
  intro m ρ m' ρ' _ hagree
  refine ⟨fun c => (result m c).2, fun c => (result m c).1, ?_, ?_⟩
  · exact (θ_run defs _ _).mono (fun r h c =>
      have k := fun (a : Ref sig .tc) ha => h c _ (mem_uc a ha)
      ⟨(k main_v20_1 (by decide)).trans ((V8_nodes m c).trans (nodes_final m c)),
        (k main_v20_0 (by decide)).trans ((V8_edges m c).trans (edges_final m c)),
        (k main_arg0 (by decide)).trans (V8_main_arg0 m (outs m) c),
        (k main_arg1 (by decide)).trans (V8_main_arg1 m (outs m) c),
        (k main_arg2 (by decide)).trans (V8_main_arg2 m (outs m) c),
        (k main_arg3 (by decide)).trans (V8_main_arg3 m (outs m) c),
        (k main_arg4 (by decide)).trans (V8_main_arg4 m (outs m) c),
        (k main_arg5 (by decide)).trans (V8_main_arg5 m (outs m) c),
        (k main_arg6 (by decide)).trans (V8_main_arg6 m (outs m) c),
        (k main_arg7 (by decide)).trans (V8_main_arg7 m (outs m) c),
        (k main_arg8 (by decide)).trans (V8_main_arg8 m (outs m) c),
        (k main_arg9 (by decide)).trans (V8_main_arg9 m (outs m) c),
        (k main_arg10 (by decide)).trans (V8_main_arg10 m (outs m) c),
        (k main_arg11 (by decide)).trans (V8_main_arg11 m (outs m) c),
        (k main_arg12 (by decide)).trans (V8_main_arg12 m (outs m) c),
        (k main_arg13 (by decide)).trans (V8_main_arg13 m (outs m) c),
        (k main_arg14 (by decide)).trans (V8_main_arg14 m (outs m) c),
        (k main_arg15 (by decide)).trans (V8_main_arg15 m (outs m) c)⟩) (run_all (F := Ideal) m ρ)
  · refine (θ_run Cert.ReferenceIdeal.defs _ _).mono (fun r h c => ⟨(h c).1.trans ?_, (h c).2.1.trans ?_, (h c).2.2⟩)
      (Cert.RefRunH.run_spec m' ρ') <;>
    · obtain ⟨h0, h1, h2, h3, h4, h5, h6, h7, h8, h9, h10, h11, h12, h13, h14, h15⟩ := hagree c
      rw [final_congr h0 h1 h2 h3 h4 h5 h6 h7 h8 h9 h10 h11 h12 h13 h14 h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
